-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x64x128 : Shape := ⟨4, ![2, 64, 64, 128]⟩
abbrev S2x64x64 : Shape := ⟨3, ![2, 64, 64]⟩
abbrev S2x64x64x64 : Shape := ⟨4, ![2, 64, 64, 64]⟩
abbrev S128x128 : Shape := ⟨2, ![128, 128]⟩
abbrev S_ : Shape := ⟨0, ![]⟩

class Facts : Prop where
  bcast_S_S2x64x64x128 : S_.BroadcastsInDim S2x64x64x128 (![] : Fin 0 → Fin S2x64x64x128.rank)
  reducesTo_S2x64x64x128_S_d0_1_2_3 : S2x64x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2x64x64x128 .f32) (main_arg1 : IVec S2x64x64 1) (main_arg2 : IVec S2x64x64x64 1) (main_arg3 : FVec F S128x128 .f32) : IVec S_ 1 :=
  let main_v0 : FVec F S2x64x64x128 .f32 := Host.absf main_arg0
  let main_cst : FVec F S_ .f32 := constant S_ .f32 0x7F800000#32
  let main_v1 : FVec F S2x64x64x128 .f32 := broadcastInDim S2x64x64x128 ![] bcast_S_S2x64x64x128 main_cst
  let main_v2 : IVec S2x64x64x128 1 := cmpf .olt main_v0 main_v1
  let main_c : IVec S_ 1 := constantI S_ 1 1#1
  let main_v3 : IVec S_ 1 := (fun x v => Host.reduce IntOp.andi x v reducesTo_S2x64x64x128_S_d0_1_2_3 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S2x64x64x128 : Shape := ⟨4, ![2, 64, 64, 128]⟩
abbrev S2x64x64 : Shape := ⟨3, ![2, 64, 64]⟩
abbrev S2x64x64x64 : Shape := ⟨4, ![2, 64, 64, 64]⟩
abbrev S128x128 : Shape := ⟨2, ![128, 128]⟩
abbrev S2x64x64x1 : Shape := ⟨4, ![2, 64, 64, 1]⟩
abbrev S_ : Shape := ⟨0, ![]⟩
abbrev S64x64 : Shape := ⟨2, ![64, 64]⟩
abbrev S1x64x64 : Shape := ⟨3, ![1, 64, 64]⟩
abbrev S64x64x1 : Shape := ⟨3, ![64, 64, 1]⟩
abbrev S64x64x64 : Shape := ⟨3, ![64, 64, 64]⟩
abbrev S64x1x64 : Shape := ⟨3, ![64, 1, 64]⟩
abbrev S1x64x64x64 : Shape := ⟨4, ![1, 64, 64, 64]⟩
abbrev S2x64x64x64x1 : Shape := ⟨5, ![2, 64, 64, 64, 1]⟩
abbrev S8192x128 : Shape := ⟨2, ![8192, 128]⟩
abbrev S1024x128 : Shape := ⟨2, ![1024, 128]⟩
abbrev S1x16x8x128 : Shape := ⟨4, ![1, 16, 8, 128]⟩
abbrev S1x64x64x128 : Shape := ⟨4, ![1, 64, 64, 128]⟩
abbrev S1x16x8x64x1 : Shape := ⟨5, ![1, 16, 8, 64, 1]⟩
abbrev S1x16x64x128 : Shape := ⟨4, ![1, 16, 64, 128]⟩
abbrev S16x64x128 : Shape := ⟨3, ![16, 64, 128]⟩
abbrev S16x64x1 : Shape := ⟨3, ![16, 64, 1]⟩
abbrev S16x8x128 : Shape := ⟨3, ![16, 8, 128]⟩
abbrev S1x8x64x128 : Shape := ⟨4, ![1, 8, 64, 128]⟩
abbrev S8x64x128 : Shape := ⟨3, ![8, 64, 128]⟩
abbrev S16x8x1x128 : Shape := ⟨4, ![16, 8, 1, 128]⟩
abbrev S16x8x64x128 : Shape := ⟨4, ![16, 8, 64, 128]⟩
abbrev S16x8x64x1 : Shape := ⟨4, ![16, 8, 64, 1]⟩
abbrev S16x8x64 : Shape := ⟨3, ![16, 8, 64]⟩

abbrev nBuf : Space → Nat
  | .hbm => 37
  | .vmem => 30
  | .smem => 0
  | _ => 0

abbrev bufTy : (tb : Table) → Fin (tcTables nBuf tb) → BufTy
  | .hbm, ⟨0, _⟩ => ⟨S2x64x64x128, .f32⟩
  | .hbm, ⟨1, _⟩ => ⟨S2x64x64, .i1⟩
  | .hbm, ⟨2, _⟩ => ⟨S2x64x64x64, .i1⟩
  | .hbm, ⟨3, _⟩ => ⟨S128x128, .f32⟩
  | .hbm, ⟨4, _⟩ => ⟨S2x64x64x1, .i1⟩
  | .hbm, ⟨5, _⟩ => ⟨S_, .f32⟩
  | .hbm, ⟨6, _⟩ => ⟨S2x64x64x128, .f32⟩
  | .hbm, ⟨7, _⟩ => ⟨S2x64x64x128, .i1⟩
  | .hbm, ⟨8, _⟩ => ⟨S2x64x64x128, .f32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S1x64x64, .i1⟩
  | .hbm, ⟨16, _⟩ => ⟨S64x64x1, .i1⟩
  | .hbm, ⟨17, _⟩ => ⟨S64x64x64, .i1⟩
  | .hbm, ⟨18, _⟩ => ⟨S64x64x64, .i1⟩
  | .hbm, ⟨19, _⟩ => ⟨S64x64x64, .i1⟩
  | .hbm, ⟨20, _⟩ => ⟨S64x1x64, .i1⟩
  | .hbm, ⟨21, _⟩ => ⟨S64x64x64, .i1⟩
  | .hbm, ⟨22, _⟩ => ⟨S64x64x64, .i1⟩
  | .hbm, ⟨23, _⟩ => ⟨S64x64x64, .i1⟩
  | .hbm, ⟨24, _⟩ => ⟨S1x64x64x64, .i1⟩
  | .hbm, ⟨25, _⟩ => ⟨S2x64x64x64, .i1⟩
  | .hbm, ⟨26, _⟩ => ⟨S2x64x64x64, .i1⟩
  | .hbm, ⟨27, _⟩ => ⟨S2x64x64x64, .f32⟩
  | .hbm, ⟨28, _⟩ => ⟨S2x64x64x64x1, .f32⟩
  | .hbm, ⟨29, _⟩ => ⟨S8192x128, .f32⟩
  | .hbm, ⟨30, _⟩ => ⟨S8192x128, .f32⟩
  | .hbm, ⟨31, _⟩ => ⟨S2x64x64x128, .f32⟩
  | .hbm, ⟨32, _⟩ => ⟨S2x64x64x128, .f32⟩
  | .hbm, ⟨33, _⟩ => ⟨S8192x128, .f32⟩
  | .hbm, ⟨34, _⟩ => ⟨S8192x128, .f32⟩
  | .hbm, ⟨35, _⟩ => ⟨S2x64x64x128, .f32⟩
  | .hbm, ⟨36, _⟩ => ⟨S2x64x64x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S1x16x8x128, .f32⟩
  | .local _ .vmem, ⟨6, _⟩ => ⟨S1x16x8x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x16x8x64x1, .f32⟩
  | .local _ .vmem, ⟨10, _⟩ => ⟨S1x16x8x64x1, .f32⟩
  | .local _ .vmem, ⟨11, _⟩ => ⟨S1x16x64x128, .f32⟩
  | .local _ .vmem, ⟨12, _⟩ => ⟨S1x16x64x128, .f32⟩
  | .local _ .vmem, ⟨13, _⟩ => ⟨S16x64x128, .f32⟩
  | .local _ .vmem, ⟨14, _⟩ => ⟨S16x64x1, .f32⟩
  | .local _ .vmem, ⟨15, _⟩ => ⟨S1024x128, .f32⟩
  | .local _ .vmem, ⟨16, _⟩ => ⟨S1024x128, .f32⟩
  | .local _ .vmem, ⟨17, _⟩ => ⟨S128x128, .f32⟩
  | .local _ .vmem, ⟨18, _⟩ => ⟨S1024x128, .f32⟩
  | .local _ .vmem, ⟨19, _⟩ => ⟨S1024x128, .f32⟩
  | .local _ .vmem, ⟨20, _⟩ => ⟨S1x16x8x128, .f32⟩
  | .local _ .vmem, ⟨21, _⟩ => ⟨S1x16x8x128, .f32⟩
  | .local _ .vmem, ⟨22, _⟩ => ⟨S1x64x64x128, .f32⟩
  | .local _ .vmem, ⟨23, _⟩ => ⟨S1x64x64x128, .f32⟩
  | .local _ .vmem, ⟨24, _⟩ => ⟨S1x16x8x64x1, .f32⟩
  | .local _ .vmem, ⟨25, _⟩ => ⟨S1x16x8x64x1, .f32⟩
  | .local _ .vmem, ⟨26, _⟩ => ⟨S1x16x64x128, .f32⟩
  | .local _ .vmem, ⟨27, _⟩ => ⟨S1x16x64x128, .f32⟩
  | .local _ .vmem, ⟨28, _⟩ => ⟨S16x64x128, .f32⟩
  | .local _ .vmem, ⟨29, _⟩ => ⟨S16x64x1, .f32⟩
  | _, _ => ⟨S2x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_scratch0 : Ref sig .tc := ⟨.vmem, 28, rfl⟩
abbrev cc3_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 4, 8], ![false, false, false]⟩

def k1_mult1 (i : grid1.Coords) : BitVec 32 :=
  let arg1 : BitVec 32 := BitVec.ofNat 32 (i 1).val
  let c16_i32 : BitVec 32 := 16#32
  let v3 : BitVec 32 := Scalar.muli arg1 c16_i32
  v3
def k1_mult2 (i : grid1.Coords) : BitVec 32 :=
  let arg2 : BitVec 32 := BitVec.ofNat 32 (i 2).val
  let c8_i32 : BitVec 32 := 8#32
  let v5 : BitVec 32 := Scalar.muli arg2 c8_i32
  v5
def k1_off1 (i : grid1.Coords) : Fin 4 → Nat :=
  let c0_4 : Index := 0#32
  let arg2 : BitVec 32 := BitVec.ofNat 32 (i 2).val
  let c8_i32 : BitVec 32 := 8#32
  let v5 : BitVec 32 := Scalar.muli arg2 c8_i32
  let v6 : BitVec 32 := v5
  let v9 : Index := Scalar.indexCast v6
  let c0_5 : Index := 0#32
  let c0_6 : Index := 0#32
  ![0, v9.toNat, 0, 0]
def k1_cond2 (i : grid1.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_35 : BitVec 32 := 0#32
  let v58 : BitVec 1 := Scalar.cmpi .ne v57 c0_i32_35
  v58

def k1_off2 (i : grid1.Coords) : Fin 4 → Nat :=
  let c0_36 : Index := 0#32
  let arg1 : BitVec 32 := BitVec.ofNat 32 (i 1).val
  let c16_i32 : BitVec 32 := 16#32
  let v3 : BitVec 32 := Scalar.muli arg1 c16_i32
  let v4 : BitVec 32 := v3
  let v59 : Index := Scalar.indexCast v4
  let c0_37 : Index := 0#32
  let c0_38 : Index := 0#32
  ![0, v59.toNat, 0, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x16x8x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x16x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![2, 4, 8], ![false, false, false]⟩

def k3_mult1 (i : grid3.Coords) : BitVec 32 :=
  let arg1 : BitVec 32 := BitVec.ofNat 32 (i 1).val
  let c16_i32 : BitVec 32 := 16#32
  let v3 : BitVec 32 := Scalar.muli arg1 c16_i32
  v3
def k3_mult2 (i : grid3.Coords) : BitVec 32 :=
  let arg2 : BitVec 32 := BitVec.ofNat 32 (i 2).val
  let c8_i32 : BitVec 32 := 8#32
  let v5 : BitVec 32 := Scalar.muli arg2 c8_i32
  v5
def k3_off1 (i : grid3.Coords) : Fin 4 → Nat :=
  let c0_4 : Index := 0#32
  let arg2 : BitVec 32 := BitVec.ofNat 32 (i 2).val
  let c8_i32 : BitVec 32 := 8#32
  let v5 : BitVec 32 := Scalar.muli arg2 c8_i32
  let v6 : BitVec 32 := v5
  let v9 : Index := Scalar.indexCast v6
  let c0_5 : Index := 0#32
  let c0_6 : Index := 0#32
  ![0, v9.toNat, 0, 0]
def k3_cond2 (i : grid3.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_35 : BitVec 32 := 0#32
  let v58 : BitVec 1 := Scalar.cmpi .ne v57 c0_i32_35
  v58

def k3_off2 (i : grid3.Coords) : Fin 4 → Nat :=
  let c0_36 : Index := 0#32
  let arg1 : BitVec 32 := BitVec.ofNat 32 (i 1).val
  let c16_i32 : BitVec 32 := 16#32
  let v3 : BitVec 32 := Scalar.muli arg1 c16_i32
  let v4 : BitVec 32 := v3
  let v59 : Index := Scalar.indexCast v4
  let c0_37 : Index := 0#32
  let c0_38 : Index := 0#32
  ![0, v59.toNat, 0, 0]
def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x16x8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x64x64x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, false]

abbrev stage3_2 : Fin 2 → Memref sig .tc .vmem S1x16x8x64x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x16x64x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bcast_S2x64x64_S2x64x64x1_0_1_2 : S2x64x64.BroadcastsInDim S2x64x64x1 (![0, 1, 2] : Fin 3 → Fin S2x64x64x1.rank)
  bcast_S_S2x64x64x128 : S_.BroadcastsInDim S2x64x64x128 (![] : Fin 0 → Fin S2x64x64x128.rank)
  bcast_S2x64x64x1_S2x64x64x128_0_1_2_3 : S2x64x64x1.BroadcastsInDim S2x64x64x128 (![0, 1, 2, 3] : Fin 4 → Fin S2x64x64x128.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S64x64_S64x64x1_0_1 : S64x64.BroadcastsInDim S64x64x1 (![0, 1] : Fin 2 → Fin S64x64x1.rank)
  bcast_S1x64x64_S64x64x64_0_1_2 : S1x64x64.BroadcastsInDim S64x64x64 (![0, 1, 2] : Fin 3 → Fin S64x64x64.rank)
  bcast_S64x64x1_S64x64x64_0_1_2 : S64x64x1.BroadcastsInDim S64x64x64 (![0, 1, 2] : Fin 3 → Fin S64x64x64.rank)
  bcast_S64x64_S64x1x64_0_2 : S64x64.BroadcastsInDim S64x1x64 (![0, 2] : Fin 2 → Fin S64x1x64.rank)
  bcast_S64x1x64_S64x64x64_0_1_2 : S64x1x64.BroadcastsInDim S64x64x64 (![0, 1, 2] : Fin 3 → Fin S64x64x64.rank)
  bcast_S64x64x64_S1x64x64x64_1_2_3 : S64x64x64.BroadcastsInDim S1x64x64x64 (![1, 2, 3] : Fin 3 → Fin S1x64x64x64.rank)
  bcast_S1x64x64x64_S2x64x64x64_0_1_2_3 : S1x64x64x64.BroadcastsInDim S2x64x64x64 (![0, 1, 2, 3] : Fin 4 → Fin S2x64x64x64.rank)
  bcast_S2x64x64x64_S2x64x64x64x1_0_1_2_3 : S2x64x64x64.BroadcastsInDim S2x64x64x64x1 (![0, 1, 2, 3] : Fin 4 → Fin S2x64x64x64x1.rank)
  shapeCasts_S2x64x64x128_S8192x128 : S2x64x64x128.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S8192x128_S2x64x64x128 : S8192x128.ShapeCasts S2x64x64x128
  inb_S16x64x128_S16x64x128_0_0_0 : ∀ a, (![0, 0, 0] : Fin 3 → Nat) a + S16x64x128.size a ≤ S16x64x128.size a
  h_S16x64x128 : 0 < S16x64x128.numel
  shapeCasts_S16x64x128_S16x64x128 : S16x64x128.ShapeCasts S16x64x128
  inb_S16x64x1_S16x64x1_0_0_0 : ∀ a, (![0, 0, 0] : Fin 3 → Nat) a + S16x64x1.size a ≤ S16x64x1.size a
  h_S16x64x1 : 0 < S16x64x1.numel
  shapeCasts_S16x64x1_S16x64x1 : S16x64x1.ShapeCasts S16x64x1
  inb_S1x16x8x128_S1x16x8x128_0_0_0_0 : ∀ a, (![0, 0, 0, 0] : Fin 4 → Nat) a + S1x16x8x128.size a ≤ S1x16x8x128.size a
  h_S1x16x8x128 : 0 < S1x16x8x128.numel
  shapeCasts_S1x16x8x128_S16x8x128 : S1x16x8x128.ShapeCasts S16x8x128
  h_S1x8x64x128 : 0 < S1x8x64x128.numel
  shapeCasts_S1x8x64x128_S8x64x128 : S1x8x64x128.ShapeCasts S8x64x128
  shapeCasts_S16x8x128_S16x8x1x128 : S16x8x128.ShapeCasts S16x8x1x128
  shapeCasts_S8x64x128_S1x8x64x128 : S8x64x128.ShapeCasts S1x8x64x128
  broadcasts_S16x8x1x128_S16x8x64x128 : S16x8x1x128.Broadcasts S16x8x64x128
  broadcasts_S1x8x64x128_S16x8x64x128 : S1x8x64x128.Broadcasts S16x8x64x128
  inb_S1x16x8x64x1_S1x16x8x64x1_0_0_0_0_0 : ∀ a, (![0, 0, 0, 0, 0] : Fin 5 → Nat) a + S1x16x8x64x1.size a ≤ S1x16x8x64x1.size a
  h_S1x16x8x64x1 : 0 < S1x16x8x64x1.numel
  shapeCasts_S1x16x8x64x1_S16x8x64x1 : S1x16x8x64x1.ShapeCasts S16x8x64x1
  reduces_S16x8x64x128_S16x8x64 : S16x8x64x128.Reduces [3] S16x8x64
  shapeCasts_S16x8x64_S16x8x64x1 : S16x8x64.ShapeCasts S16x8x64x1
  natLt_1_32 : 1 < 32
  broadcasts_S16x8x64x1_S16x8x64x128 : S16x8x64x1.Broadcasts S16x8x64x128
  reduces_S16x8x64x128_S16x64x128 : S16x8x64x128.Reduces [1] S16x64x128
  reduces_S16x8x64x1_S16x64x1 : S16x8x64x1.Reduces [1] S16x64x1
  h_S1x16x64x128 : 0 < S1x16x64x128.numel
  shapeCasts_S1x16x64x128_S16x64x128 : S1x16x64x128.ShapeCasts S16x64x128
  broadcasts_S16x64x1_S16x64x128 : S16x64x1.Broadcasts S16x64x128
  inb_S1x16x64x128_S1x16x64x128_0_0_0_0 : ∀ a, (![0, 0, 0, 0] : Fin 4 → Nat) a + S1x16x64x128.size a ≤ S1x16x64x128.size a
  shapeCasts_S16x64x128_S1x16x64x128 : S16x64x128.ShapeCasts S1x16x64x128
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  k1_mult1_dvd : ∀ i : grid1.Coords, 16 ∣ (k1_mult1 i).toNat
  k1_mult2_dvd : ∀ i : grid1.Coords, 8 ∣ (k1_mult2 i).toNat
  k1_off1_inb : ∀ i : grid1.Coords, ∀ a, (k1_off1 i) a + S1x8x64x128.size a ≤ S1x64x64x128.size a
  k1_off2_inb : ∀ i : grid1.Coords, ∀ (k1_h2 : k1_cond2 i = 1#1), ∀ a, (k1_off2 i) a + S1x16x64x128.size a ≤ S1x64x64x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x8x128.size a ≤ S2x64x64x128.size a
  hwx1_0 : ∀ i : grid1.Coords, EltTy.bits .f32 = 32 ∨ (Rect.block (s := S2x64x64x128) S1x16x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64x128.size a ≤ S2x64x64x128.size a
  hwx1_1 : ∀ i : grid1.Coords, EltTy.bits .f32 = 32 ∨ (Rect.block (s := S2x64x64x128) S1x64x64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x8x64x1.size a ≤ S2x64x64x64x1.size a
  hwx1_2 : ∀ i : grid1.Coords, EltTy.bits .f32 = 32 ∨ (Rect.block (s := S2x64x64x64x1) S1x16x8x64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x64x128.size a ≤ S2x64x64x128.size a
  hwx1_3 : ∀ i : grid1.Coords, EltTy.bits .f32 = 32 ∨ (Rect.block (s := S2x64x64x128) S1x16x64x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  k3_mult1_dvd : ∀ i : grid3.Coords, 16 ∣ (k3_mult1 i).toNat
  k3_mult2_dvd : ∀ i : grid3.Coords, 8 ∣ (k3_mult2 i).toNat
  k3_off1_inb : ∀ i : grid3.Coords, ∀ a, (k3_off1 i) a + S1x8x64x128.size a ≤ S1x64x64x128.size a
  k3_off2_inb : ∀ i : grid3.Coords, ∀ (k3_h2 : k3_cond2 i = 1#1), ∀ a, (k3_off2 i) a + S1x16x64x128.size a ≤ S1x64x64x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x8x128.size a ≤ S2x64x64x128.size a
  hwx3_0 : ∀ i : grid3.Coords, EltTy.bits .f32 = 32 ∨ (Rect.block (s := S2x64x64x128) S1x16x8x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x64x64x128.size a ≤ S2x64x64x128.size a
  hwx3_1 : ∀ i : grid3.Coords, EltTy.bits .f32 = 32 ∨ (Rect.block (s := S2x64x64x128) S1x64x64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x16x8x64x1.size a ≤ S2x64x64x64x1.size a
  hwx3_2 : ∀ i : grid3.Coords, EltTy.bits .f32 = 32 ∨ (Rect.block (s := S2x64x64x64x1) S1x16x8x64x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x16x64x128.size a ≤ S2x64x64x128.size a
  hwx3_3 : ∀ i : grid3.Coords, EltTy.bits .f32 = 32 ∨ (Rect.block (s := S2x64x64x128) S1x16x64x128.size (cc3_transform_3 i) (hinb3_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v22) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S1x16x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x64x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x16x8x64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x16x64x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v26) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S1x16x8x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1x64x64x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x16x8x64x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x16x64x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2x64x64x128 : Shape := ⟨4, ![2, 64, 64, 128]⟩
abbrev S2x64x64 : Shape := ⟨3, ![2, 64, 64]⟩
abbrev S2x64x64x64 : Shape := ⟨4, ![2, 64, 64, 64]⟩
abbrev S128x128 : Shape := ⟨2, ![128, 128]⟩
abbrev S64x64 : Shape := ⟨2, ![64, 64]⟩
abbrev S_ : Shape := ⟨0, ![]⟩
abbrev S1x1x64x64x1 : Shape := ⟨5, ![1, 1, 64, 64, 1]⟩
abbrev S1x64x64x1x1 : Shape := ⟨5, ![1, 64, 64, 1, 1]⟩
abbrev S1x64x64x64x1 : Shape := ⟨5, ![1, 64, 64, 64, 1]⟩
abbrev S1x64x1x64x1 : Shape := ⟨5, ![1, 64, 1, 64, 1]⟩
abbrev S2x64x64x1 : Shape := ⟨4, ![2, 64, 64, 1]⟩
abbrev S2x64x64x1x128 : Shape := ⟨5, ![2, 64, 64, 1, 128]⟩
abbrev S2x1x64x64x128 : Shape := ⟨5, ![2, 1, 64, 64, 128]⟩
abbrev S2x64x64x64x128 : Shape := ⟨5, ![2, 64, 64, 64, 128]⟩
abbrev S2x64x64x64x1 : Shape := ⟨5, ![2, 64, 64, 64, 1]⟩

abbrev nBuf : Space → Nat
  | .hbm => 121
  | .vmem => 0
  | .smem => 0
  | _ => 0

abbrev bufTy : (tb : Table) → Fin (tcTables nBuf tb) → BufTy
  | .hbm, ⟨0, _⟩ => ⟨S2x64x64x128, .f32⟩
  | .hbm, ⟨1, _⟩ => ⟨S2x64x64, .i1⟩
  | .hbm, ⟨2, _⟩ => ⟨S2x64x64x64, .i1⟩
  | .hbm, ⟨3, _⟩ => ⟨S128x128, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S1x1x64x64x1, .i1⟩
  | .hbm, ⟨11, _⟩ => ⟨S1x64x64x1x1, .i1⟩
  | .hbm, ⟨12, _⟩ => ⟨S1x64x64x64x1, .i1⟩
  | .hbm, ⟨13, _⟩ => ⟨S1x64x64x64x1, .i1⟩
  | .hbm, ⟨14, _⟩ => ⟨S1x64x64x64x1, .i1⟩
  | .hbm, ⟨15, _⟩ => ⟨S1x64x1x64x1, .i1⟩
  | .hbm, ⟨16, _⟩ => ⟨S1x64x64x64x1, .i1⟩
  | .hbm, ⟨17, _⟩ => ⟨S1x64x64x64x1, .i1⟩
  | .hbm, ⟨18, _⟩ => ⟨S2x64x64x1, .i1⟩
  | .hbm, ⟨19, _⟩ => ⟨S_, .f32⟩
  | .hbm, ⟨20, _⟩ => ⟨S2x64x64x128, .f32⟩
  | .hbm, ⟨21, _⟩ => ⟨S2x64x64x128, .i1⟩
  | .hbm, ⟨22, _⟩ => ⟨S2x64x64x128, .f32⟩
  | .hbm, ⟨23, _⟩ => ⟨S2x64x64x128, .f32⟩
  | .hbm, ⟨24, _⟩ => ⟨S2x64x64x1x128, .f32⟩
  | .hbm, ⟨25, _⟩ => ⟨S2x1x64x64x128, .f32⟩
  | .hbm, ⟨26, _⟩ => ⟨S2x64x64x64x128, .f32⟩
  | .hbm, ⟨27, _⟩ => ⟨S2x64x64x64x128, .f32⟩
  | .hbm, ⟨28, _⟩ => ⟨S2x64x64x64x128, .f32⟩
  | .hbm, ⟨29, _⟩ => ⟨S_, .f32⟩
  | .hbm, ⟨30, _⟩ => ⟨S2x64x64x64x128, .i1⟩
  | .hbm, ⟨31, _⟩ => ⟨S2x64x64x64x128, .f32⟩
  | .hbm, ⟨32, _⟩ => ⟨S2x64x64x64x128, .f32⟩
  | .hbm, ⟨33, _⟩ => ⟨S2x64x64x64x1, .i1⟩
  | .hbm, ⟨34, _⟩ => ⟨S_, .f32⟩
  | .hbm, ⟨35, _⟩ => ⟨S2x64x64x64x128, .i1⟩
  | .hbm, ⟨36, _⟩ => ⟨S2x64x64x64x128, .f32⟩
  | .hbm, ⟨37, _⟩ => ⟨S2x64x64x64x128, .f32⟩
  | .hbm, ⟨38, _⟩ => ⟨S_, .f32⟩
  | .hbm, ⟨39, _⟩ => ⟨S2x64x64x64x128, .f32⟩
  | .hbm, ⟨40, _⟩ => ⟨S2x64x64x64x128, .i1⟩
  | .hbm, ⟨41, _⟩ => ⟨S_, .i1⟩
  | .hbm, ⟨42, _⟩ => ⟨S2x64x64x64, .i1⟩
  | .hbm, ⟨43, _⟩ => ⟨S2x64x64x64x1, .i1⟩
  | .hbm, ⟨44, _⟩ => ⟨S_, .f32⟩
  | .hbm, ⟨45, _⟩ => ⟨S2x64x64x64x128, .i1⟩
  | .hbm, ⟨46, _⟩ => ⟨S2x64x64x64x128, .f32⟩
  | .hbm, ⟨47, _⟩ => ⟨S2x64x64x64x128, .f32⟩
  | .hbm, ⟨48, _⟩ => ⟨S2x64x64x64x128, .f32⟩
  | .hbm, ⟨49, _⟩ => ⟨S_, .f32⟩
  | .hbm, ⟨50, _⟩ => ⟨S2x64x64x64x128, .f32⟩
  | .hbm, ⟨51, _⟩ => ⟨S2x64x64x64x128, .i1⟩
  | .hbm, ⟨52, _⟩ => ⟨S_, .i1⟩
  | .hbm, ⟨53, _⟩ => ⟨S2x64x64x128, .i1⟩
  | .hbm, ⟨54, _⟩ => ⟨S_, .f32⟩
  | .hbm, ⟨55, _⟩ => ⟨S_, .f32⟩
  | .hbm, ⟨56, _⟩ => ⟨S2x64x64x128, .f32⟩
  | .hbm, ⟨57, _⟩ => ⟨S2x64x64x128, .f32⟩
  | .hbm, ⟨58, _⟩ => ⟨S2x64x64x128, .f32⟩
  | .hbm, ⟨59, _⟩ => ⟨S2x64x64x64x128, .f32⟩
  | .hbm, ⟨60, _⟩ => ⟨S2x64x64x64x128, .f32⟩
  | .hbm, ⟨61, _⟩ => ⟨S_, .f32⟩
  | .hbm, ⟨62, _⟩ => ⟨S2x64x64x64x128, .f32⟩
  | .hbm, ⟨63, _⟩ => ⟨S2x64x64x64x128, .f32⟩
  | .hbm, ⟨64, _⟩ => ⟨S_, .f32⟩
  | .hbm, ⟨65, _⟩ => ⟨S2x64x64x64x128, .f32⟩
  | .hbm, ⟨66, _⟩ => ⟨S2x64x64x64x128, .f32⟩
  | .hbm, ⟨67, _⟩ => ⟨S_, .f32⟩
  | .hbm, ⟨68, _⟩ => ⟨S2x64x64x128, .f32⟩
  | .hbm, ⟨69, _⟩ => ⟨S2x64x64x128, .f32⟩
  | .hbm, ⟨70, _⟩ => ⟨S2x64x64x128, .f32⟩
  | .hbm, ⟨71, _⟩ => ⟨S2x64x64x128, .f32⟩
  | .hbm, ⟨72, _⟩ => ⟨S2x64x64x128, .f32⟩
  | .hbm, ⟨73, _⟩ => ⟨S2x64x64x1x128, .f32⟩
  | .hbm, ⟨74, _⟩ => ⟨S2x1x64x64x128, .f32⟩
  | .hbm, ⟨75, _⟩ => ⟨S2x64x64x64x128, .f32⟩
  | .hbm, ⟨76, _⟩ => ⟨S2x64x64x64x128, .f32⟩
  | .hbm, ⟨77, _⟩ => ⟨S2x64x64x64x128, .f32⟩
  | .hbm, ⟨78, _⟩ => ⟨S_, .f32⟩
  | .hbm, ⟨79, _⟩ => ⟨S2x64x64x64x128, .i1⟩
  | .hbm, ⟨80, _⟩ => ⟨S2x64x64x64x128, .f32⟩
  | .hbm, ⟨81, _⟩ => ⟨S2x64x64x64x128, .f32⟩
  | .hbm, ⟨82, _⟩ => ⟨S2x64x64x64x1, .i1⟩
  | .hbm, ⟨83, _⟩ => ⟨S_, .f32⟩
  | .hbm, ⟨84, _⟩ => ⟨S2x64x64x64x128, .i1⟩
  | .hbm, ⟨85, _⟩ => ⟨S2x64x64x64x128, .f32⟩
  | .hbm, ⟨86, _⟩ => ⟨S2x64x64x64x128, .f32⟩
  | .hbm, ⟨87, _⟩ => ⟨S_, .f32⟩
  | .hbm, ⟨88, _⟩ => ⟨S2x64x64x64x128, .f32⟩
  | .hbm, ⟨89, _⟩ => ⟨S2x64x64x64x128, .i1⟩
  | .hbm, ⟨90, _⟩ => ⟨S_, .i1⟩
  | .hbm, ⟨91, _⟩ => ⟨S2x64x64x64, .i1⟩
  | .hbm, ⟨92, _⟩ => ⟨S2x64x64x64x1, .i1⟩
  | .hbm, ⟨93, _⟩ => ⟨S_, .f32⟩
  | .hbm, ⟨94, _⟩ => ⟨S2x64x64x64x128, .i1⟩
  | .hbm, ⟨95, _⟩ => ⟨S2x64x64x64x128, .f32⟩
  | .hbm, ⟨96, _⟩ => ⟨S2x64x64x64x128, .f32⟩
  | .hbm, ⟨97, _⟩ => ⟨S2x64x64x64x128, .f32⟩
  | .hbm, ⟨98, _⟩ => ⟨S_, .f32⟩
  | .hbm, ⟨99, _⟩ => ⟨S2x64x64x64x128, .f32⟩
  | .hbm, ⟨100, _⟩ => ⟨S2x64x64x64x128, .i1⟩
  | .hbm, ⟨101, _⟩ => ⟨S_, .i1⟩
  | .hbm, ⟨102, _⟩ => ⟨S2x64x64x128, .i1⟩
  | .hbm, ⟨103, _⟩ => ⟨S_, .f32⟩
  | .hbm, ⟨104, _⟩ => ⟨S_, .f32⟩
  | .hbm, ⟨105, _⟩ => ⟨S2x64x64x128, .f32⟩
  | .hbm, ⟨106, _⟩ => ⟨S2x64x64x128, .f32⟩
  | .hbm, ⟨107, _⟩ => ⟨S2x64x64x128, .f32⟩
  | .hbm, ⟨108, _⟩ => ⟨S2x64x64x64x128, .f32⟩
  | .hbm, ⟨109, _⟩ => ⟨S2x64x64x64x128, .f32⟩
  | .hbm, ⟨110, _⟩ => ⟨S_, .f32⟩
  | .hbm, ⟨111, _⟩ => ⟨S2x64x64x64x128, .f32⟩
  | .hbm, ⟨112, _⟩ => ⟨S2x64x64x64x128, .f32⟩
  | .hbm, ⟨113, _⟩ => ⟨S_, .f32⟩
  | .hbm, ⟨114, _⟩ => ⟨S2x64x64x64x128, .f32⟩
  | .hbm, ⟨115, _⟩ => ⟨S2x64x64x64x128, .f32⟩
  | .hbm, ⟨116, _⟩ => ⟨S_, .f32⟩
  | .hbm, ⟨117, _⟩ => ⟨S2x64x64x128, .f32⟩
  | .hbm, ⟨118, _⟩ => ⟨S2x64x64x128, .f32⟩
  | .hbm, ⟨119, _⟩ => ⟨S2x64x64x128, .f32⟩
  | .hbm, ⟨120, _⟩ => ⟨S2x64x64x128, .f32⟩
  | _, _ => ⟨S2x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_call2_v0 : Ref sig .tc := ⟨.hbm, 35, rfl⟩
abbrev main_call2_v1 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_call3_v0 : Ref sig .tc := ⟨.hbm, 45, rfl⟩
abbrev main_call3_v1 : Ref sig .tc := ⟨.hbm, 46, rfl⟩
abbrev main_v29 : Ref sig .tc := ⟨.hbm, 47, rfl⟩
abbrev main_call4_v0 : Ref sig .tc := ⟨.hbm, 48, rfl⟩
abbrev main_call4_cst : Ref sig .tc := ⟨.hbm, 49, rfl⟩
abbrev main_call4_v1 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_cst_6 : Ref sig .tc := ⟨.hbm, 54, rfl⟩
abbrev main_cst_7 : Ref sig .tc := ⟨.hbm, 55, rfl⟩
abbrev main_call5_v0 : Ref sig .tc := ⟨.hbm, 56, rfl⟩
abbrev main_call5_v1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_call6_v0 : Ref sig .tc := ⟨.hbm, 79, rfl⟩
abbrev main_call6_v1 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_call7_v0 : Ref sig .tc := ⟨.hbm, 84, rfl⟩
abbrev main_call7_v1 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_c_14 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_call8_v0 : Ref sig .tc := ⟨.hbm, 94, rfl⟩
abbrev main_call8_v1 : Ref sig .tc := ⟨.hbm, 95, rfl⟩
abbrev main_v56 : Ref sig .tc := ⟨.hbm, 96, rfl⟩
abbrev main_call9_v0 : Ref sig .tc := ⟨.hbm, 97, rfl⟩
abbrev main_call9_cst : Ref sig .tc := ⟨.hbm, 98, rfl⟩
abbrev main_call9_v1 : Ref sig .tc := ⟨.hbm, 99, rfl⟩
abbrev main_v57 : Ref sig .tc := ⟨.hbm, 100, rfl⟩
abbrev main_c_16 : Ref sig .tc := ⟨.hbm, 101, rfl⟩
abbrev main_v58 : Ref sig .tc := ⟨.hbm, 102, rfl⟩
abbrev main_cst_17 : Ref sig .tc := ⟨.hbm, 103, rfl⟩
abbrev main_cst_18 : Ref sig .tc := ⟨.hbm, 104, rfl⟩
abbrev main_call10_v0 : Ref sig .tc := ⟨.hbm, 105, rfl⟩
abbrev main_call10_v1 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_19 : Ref sig .tc := ⟨.hbm, 110, rfl⟩
abbrev main_v62 : Ref sig .tc := ⟨.hbm, 111, rfl⟩
abbrev main_v63 : Ref sig .tc := ⟨.hbm, 112, rfl⟩
abbrev main_cst_20 : Ref sig .tc := ⟨.hbm, 113, rfl⟩
abbrev main_v64 : Ref sig .tc := ⟨.hbm, 114, rfl⟩
abbrev main_v65 : Ref sig .tc := ⟨.hbm, 115, rfl⟩
abbrev main_cst_21 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S1x1x64x64x1_2_3 : S64x64.BroadcastsInDim S1x1x64x64x1 (![2, 3] : Fin 2 → Fin S1x1x64x64x1.rank)
  bcast_S64x64_S1x64x64x1x1_1_2 : S64x64.BroadcastsInDim S1x64x64x1x1 (![1, 2] : Fin 2 → Fin S1x64x64x1x1.rank)
  bcast_S1x1x64x64x1_S1x64x64x64x1_0_1_2_3_4 : S1x1x64x64x1.BroadcastsInDim S1x64x64x64x1 (![0, 1, 2, 3, 4] : Fin 5 → Fin S1x64x64x64x1.rank)
  bcast_S1x64x64x1x1_S1x64x64x64x1_0_1_2_3_4 : S1x64x64x1x1.BroadcastsInDim S1x64x64x64x1 (![0, 1, 2, 3, 4] : Fin 5 → Fin S1x64x64x64x1.rank)
  bcast_S64x64_S1x64x1x64x1_1_3 : S64x64.BroadcastsInDim S1x64x1x64x1 (![1, 3] : Fin 2 → Fin S1x64x1x64x1.rank)
  bcast_S1x64x1x64x1_S1x64x64x64x1_0_1_2_3_4 : S1x64x1x64x1.BroadcastsInDim S1x64x64x64x1 (![0, 1, 2, 3, 4] : Fin 5 → Fin S1x64x64x64x1.rank)
  bcast_S2x64x64_S2x64x64x1_0_1_2 : S2x64x64.BroadcastsInDim S2x64x64x1 (![0, 1, 2] : Fin 3 → Fin S2x64x64x1.rank)
  bcast_S_S2x64x64x128 : S_.BroadcastsInDim S2x64x64x128 (![] : Fin 0 → Fin S2x64x64x128.rank)
  bcast_S2x64x64x1_S2x64x64x128_0_1_2_3 : S2x64x64x1.BroadcastsInDim S2x64x64x128 (![0, 1, 2, 3] : Fin 4 → Fin S2x64x64x128.rank)
  bcast_S2x64x64x128_S2x64x64x1x128_0_1_2_4 : S2x64x64x128.BroadcastsInDim S2x64x64x1x128 (![0, 1, 2, 4] : Fin 4 → Fin S2x64x64x1x128.rank)
  bcast_S2x64x64x128_S2x1x64x64x128_0_2_3_4 : S2x64x64x128.BroadcastsInDim S2x1x64x64x128 (![0, 2, 3, 4] : Fin 4 → Fin S2x1x64x64x128.rank)
  bcast_S2x64x64x1x128_S2x64x64x64x128_0_1_2_3_4 : S2x64x64x1x128.BroadcastsInDim S2x64x64x64x128 (![0, 1, 2, 3, 4] : Fin 5 → Fin S2x64x64x64x128.rank)
  bcast_S2x1x64x64x128_S2x64x64x64x128_0_1_2_3_4 : S2x1x64x64x128.BroadcastsInDim S2x64x64x64x128 (![0, 1, 2, 3, 4] : Fin 5 → Fin S2x64x64x64x128.rank)
  bcast_S1x64x64x64x1_S2x64x64x64x128_0_1_2_3_4 : S1x64x64x64x1.BroadcastsInDim S2x64x64x64x128 (![0, 1, 2, 3, 4] : Fin 5 → Fin S2x64x64x64x128.rank)
  bcast_S_S2x64x64x64x128 : S_.BroadcastsInDim S2x64x64x64x128 (![] : Fin 0 → Fin S2x64x64x64x128.rank)
  bcast_S2x64x64x64_S2x64x64x64x1_0_1_2_3 : S2x64x64x64.BroadcastsInDim S2x64x64x64x1 (![0, 1, 2, 3] : Fin 4 → Fin S2x64x64x64x1.rank)
  bcast_S2x64x64x64x1_S2x64x64x64x128_0_1_2_3_4 : S2x64x64x64x1.BroadcastsInDim S2x64x64x64x128 (![0, 1, 2, 3, 4] : Fin 5 → Fin S2x64x64x64x128.rank)
  reducesTo_S2x64x64x64x128_S2x64x64x64_d4 : S2x64x64x64x128.ReducesTo [4] S2x64x64x64
  h_S_ : 0 < S_.numel
  reducesTo_S2x64x64x64x128_S2x64x64x128_d2 : S2x64x64x64x128.ReducesTo [2] S2x64x64x128
  dot_S2x64x64x128_S128x128_S2x64x64x128_3_0_012_1_n_n_wf : DotDims.WF S2x64x64x128 S128x128 S2x64x64x128 [3] [0] [0, 1, 2] [1] [] []

variable [Facts₀]

def dot_S2x64x64x128_S128x128_S2x64x64x128_3_0_012_1_n_n : DotDims S2x64x64x128 S128x128 S2x64x64x128 where
  lhsContracting := [3]
  rhsContracting := [0]
  lhsNonContracting := [0, 1, 2]
  rhsNonContracting := [1]
  lhsBatch := []
  rhsBatch := []
  wf := dot_S2x64x64x128_S128x128_S2x64x64x128_3_0_012_1_n_n_wf

class Facts : Prop extends Facts₀ where

variable [Facts]
-- ==== Proof.KernelRegMat0.lean ====
import proofs.«408110_j25142738550817_3_alg».proof.Proof.Gen.Kernel.Launch
import proofs.«408110_j25142738550817_3_alg».proof.Proof.Gen.Kernel.Skeleton
import proofs.«408110_j25142738550817_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1024x128 := Rect.unit (s := S1024x128) ![0, 0] S1024x128.size inb_S1024x128_S1024x128_0_0
abbrev rW0 : Rect S128x128 := Rect.unit (s := S128x128) ![0, 0] S128x128.size inb_S128x128_S128x128_0_0

def out0_2 (x0 : Vec F S1024x128 .f32) (x1 : Vec F S128x128 .f32) : Vec F S1024x128 .f32 :=
  View.canon [⟨rA0, k0_pay1 (View.ld x0 rA0) (View.ld x1 rW0)⟩]

theorem cover0_2 (p0 : Vec F S1024x128 .f32) (y : S1024x128.Idx) :
    ∃ pc ∈ ([⟨rA0, p0⟩] : List (View.Piece (Elt F) S1024x128 .f32)), y ∈ pc.1.set :=
  View.cover_of_tiled [⟨rA0, p0⟩] S1024x128.size (by rfl) y

set_option maxHeartbeats 1000000 in
theorem sound_kernel0 (c : Dev nD) (E : Set ℕ) (i : grid0.Coords) (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegMat2.lean ====
import proofs.«408110_j25142738550817_3_alg».proof.Proof.Gen.Kernel.Launch
import proofs.«408110_j25142738550817_3_alg».proof.Proof.Gen.Kernel.Skeleton
import proofs.«408110_j25142738550817_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1024x128 := Rect.unit (s := S1024x128) ![0, 0] S1024x128.size inb_S1024x128_S1024x128_0_0
abbrev rW2 : Rect S128x128 := Rect.unit (s := S128x128) ![0, 0] S128x128.size inb_S128x128_S128x128_0_0

def out2_2 (x0 : Vec F S1024x128 .f32) (x1 : Vec F S128x128 .f32) : Vec F S1024x128 .f32 :=
  View.canon [⟨rA2, k2_pay1 (View.ld x0 rA2) (View.ld x1 rW2)⟩]

theorem cover2_2 (p0 : Vec F S1024x128 .f32) (y : S1024x128.Idx) :
    ∃ pc ∈ ([⟨rA2, p0⟩] : List (View.Piece (Elt F) S1024x128 .f32)), y ∈ pc.1.set :=
  View.cover_of_tiled [⟨rA2, p0⟩] S1024x128.size (by rfl) y

set_option maxHeartbeats 1000000 in
theorem sound_kernel2 (c : Dev nD) (E : Set ℕ) (i : grid2.Coords) (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRegExp1Runs.lean ====
import proofs.«408110_j25142738550817_3_alg».proof.Proof.Gen.Kernel.Launch
import proofs.«408110_j25142738550817_3_alg».proof.Proof.Gen.Kernel.Skeleton
import proofs.«408110_j25142738550817_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole)

set_option maxHeartbeats 1000000 in
/-- j = 0: both scratch buffers are overwritten, the output tile is untouched; the witness is the pieces stored. -/
noncomputable def kernelRun1_A (hc0 : ((Scalar.cmpi .ne (Scalar.extui (Scalar.cmpi .eq (BitVec.ofNat 32 (i 2).val) 0#32)) 0#32) = 1#1)) (hc1 : ¬(k1_cond2 i = 1#1))
    (x0 : Vec F S1x16x8x128 .f32) (x1 : Vec F S1x64x64x128 .f32) (x2 : Vec F S1x16x8x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__expand_kernel i arg3 harg3 arg4 harg4 arg5 harg5 arg6 harg6 arg7 harg7 arg8 harg8) K } := by
  refine ⟨[], ?_, ?_, fun xi3 E K => ?run⟩
  case run =>
    simp only [cc1__expand_kernel_eq_skeleton]; unfold cc1__expand_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- 0 < j < 7: both scratch buffers are updated from what they held, the output tile is untouched. -/
noncomputable def kernelRun1_B (hc0 : ¬((Scalar.cmpi .ne (Scalar.extui (Scalar.cmpi .eq (BitVec.ofNat 32 (i 2).val) 0#32)) 0#32) = 1#1)) (hc1 : ¬(k1_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__expand_kernel i arg3 harg3 arg4 harg4 arg5 harg5 arg6 harg6 arg7 harg7 arg8 harg8) K } := by
  refine ⟨[], ?_, ?_, fun xi3 E K => ?run⟩
  case run =>
    simp only [cc1__expand_kernel_eq_skeleton]; unfold cc1__expand_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- j = 7: both scratch buffers are updated from what they held and the output tile is stored. -/
noncomputable def kernelRun1_C (hc0 : ¬((Scalar.cmpi .ne (Scalar.extui (Scalar.cmpi .eq (BitVec.ofNat 32 (i 2).val) 0#32)) 0#32) = 1#1)) (hc1 : (k1_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__expand_kernel i arg3 harg3 arg4 harg4 arg5 harg5 arg6 harg6 arg7 harg7 arg8 harg8) K } := by
  refine ⟨?_, ?_, ?_, fun E K => ?run⟩
  case run =>
    simp only [cc1__expand_kernel_eq_skeleton]; unfold cc1__expand_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.KernelRest1.lean ====
import proofs.«408110_j25142738550817_3_alg».proof.Proof.Gen.Kernel.Launch
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM1_0 : Memref sig .tc .vmem S16x64x128 .f32 := Memref.whole cc1_scratch0
abbrev scM1_1 : Memref sig .tc .vmem S16x64x1 .f32 := Memref.whole cc1_scratch1

def rest1 (c : Dev nD) : sProp 𝕄 :=
  Pipeline.scopedRestBut (Ix := Unit) (Name := ℕ) (U := UR sig nD τ) (Lvl := ℕ) (Val := Elt F) spec1 c [cc1_scratch0, cc1_scratch1]

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ rest1 (F := F) c ∗ (∃ r, prngReg c r)) := by
  unfold Pipeline.ΦA rest1
  rw [Pipeline.scopedRest_split_of_list spec1 c [cc1_scratch0, cc1_scratch1] (by decide) (by decide)]
  simp only [bigSepL_cons_cons, bigSepL_singleton, scM1_0, scM1_1, owns_whole]
  exact sep_assoc.trans sep_assoc

theorem PhiA1_join (c : Dev nD) :
    iprop((∃ d, owns (c : Thread nD τ) scM1_0 fullShare d) ∗ (∃ d, owns (c : Thread nD τ) scM1_1 fullShare d) ∗ rest1 (F := F) c ∗ (∃ r, prngReg c r)) ⊢ (Pipeline.ΦA spec1 c : sProp 𝕄) := by
  unfold Pipeline.ΦA rest1
  rw [Pipeline.scopedRest_split_of_list spec1 c [cc1_scratch0, cc1_scratch1] (by decide) (by decide)]
  simp only [bigSepL_cons_cons, bigSepL_singleton, scM1_0, scM1_1, owns_whole]
  exact sep_assoc'.trans sep_assoc'

end Cert.Kernel.Hand

end
-- ==== Proof.KernelRegExp1.lean ====
import proofs.«408110_j25142738550817_3_alg».proof.Proof.Gen.Kernel.Launch
import proofs.«408110_j25142738550817_3_alg».proof.Proof.Gen.Kernel.Skeleton
import proofs.«408110_j25142738550817_3_alg».proof.Proof.Gen.Kernel.Points
import proofs.«408110_j25142738550817_3_alg».proof.Proof.KernelRegExp1Runs
import proofs.«408110_j25142738550817_3_alg».proof.Proof.KernelRest1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

abbrev rG1 : Rect S1x16x8x128 := Rect.unit (s := S1x16x8x128) ![0, 0, 0, 0] S1x16x8x128.size inb_S1x16x8x128_S1x16x8x128_0_0_0_0
abbrev rM1 : Rect S1x16x8x64x1 := Rect.unit (s := S1x16x8x64x1) ![0, 0, 0, 0, 0] S1x16x8x64x1.size inb_S1x16x8x64x1_S1x16x8x64x1_0_0_0_0_0

abbrev rJ1 (i : grid1.Coords) : Rect S1x64x64x128 := Rect.unit (s := S1x64x64x128) (k1_off1 i) S1x8x64x128.size (k1_off1_inb i)

abbrev rI1 (i : grid1.Coords) (h : k1_cond2 i = 1#1) : Rect S1x64x64x128 := Rect.unit (s := S1x64x64x128) (k1_off2 i) S1x16x64x128.size (k1_off2_inb i h)

def sumStep1 (i : grid1.Coords) (x0 : Vec F S1x16x8x128 .f32) (x1 : Vec F S1x64x64x128 .f32) (x2 : Vec F S1x16x8x64x1 .f32)
    (acc : Vec F S16x64x128 .f32) : Vec F S16x64x128 .f32 :=
  k1_pay1 (k1_pay6 (View.ld x0 rG1) (View.ld x1 (rJ1 i))) (k1_pay8 (View.ld x0 rG1) (View.ld x1 (rJ1 i)) (View.ld x2 rM1)) acc

def seenStep1 (i : grid1.Coords) (x0 : Vec F S1x16x8x128 .f32) (x1 : Vec F S1x64x64x128 .f32) (x2 : Vec F S1x16x8x64x1 .f32)
    (acc : Vec F S16x64x1 .f32) : Vec F S16x64x1 .f32 :=
  k1_pay2 (k1_pay7 (View.ld x0 rG1) (View.ld x1 (rJ1 i)) (View.ld x2 rM1)) acc

def fin1 (i : grid1.Coords) (h : k1_cond2 i = 1#1) (x1 : Vec F S1x64x64x128 .f32) (seen : Vec F S16x64x1 .f32) (sum : Vec F S16x64x128 .f32) :
    Vec F S1x16x64x128 .f32 :=
  k1_pay3 (View.ld x1 (rI1 i h)) seen sum

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := by decide +kernel

theorem noFlush1_3 (t : Fin cfg1.N) (h : ¬cond1_1 (grid1.coords t)) : (cfg1.win 3).flush t = false :=
  Bool.eq_false_iff.mpr fun hf => h ((hcond1_1 t).mpr ((flush1_3 t).mp hf))

theorem liveAt1_3_C : ∀ t : Fin cfg1.N, cond1_1 (grid1.coords t) → cfg1.idle 3 (grid1.coords t) = false := by decide +kernel

abbrev VO1_3 : View sig .tc .vmem S1x16x64x128 .f32 := (Memref.whole cc1_stg3_0 : Memref sig .tc .vmem S1x16x64x128 .f32).view

abbrev ms1_0 (t : Fin cfg1.N) : Memref sig .tc .vmem S1x16x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x8x64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x64x128 .f32 := win1_3.stage (cfg1.slots t 3)
abbrev hs1_3 (t : Fin cfg1.N) : (ms1_3 t).IsWhole := hstage1_3 ((cfg1.slots t 3).cast nbuf1_3)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid1.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole) (x0 : Vec F S1x16x8x128 .f32) (x1 : Vec F S1x64x64x128 .f32) (x2 : Vec F S1x16x8x64x1 .f32)

section
variable (hc0 : cond1_0 i) (hc1 : ¬cond1_1 i)
local notation "𝓡" => kernelRun1_A c i arg3 harg3 arg4 harg4 arg5 harg5 arg6 harg6 arg7 harg7 arg8 harg8 hc0 hc1 x0 x1 x2

/-- The stores of j = 0 cover the sum scratch, the last of them with this tile's contribution over the reset value. -/
theorem sum1_A (v : View sig .tc .vmem S16x64x128 .f32) (f : v.ty.Contents (Elt F)) :
    v.read (Elt F) (v.writes (Elt F) f (𝓡).2.1) = sumStep1 i x0 x1 x2 (k1_pay4 (F := F)) := by
  rw [View.read_writes_eq_canon _ _ _ (View.cover_of_tiledL (𝓡).2.1 S16x64x128.size (by sl_kernel_rfl))]
  unfold kernelRun1_A; dsimp only; sl_unfold_words
  rw [View.canon_cons_unit_zero (S := S16x64x128) hz3, View.readCov_unit_zero (S := S16x64x128) _ hz3]
  unfold sumStep1
  simp only [View.readAt_eq_ld, harg3.read_unread, harg4.read_unread, harg5.read_unread]
  rfl

/-- The same for the flag scratch. -/
theorem flag1_A (v : View sig .tc .vmem S16x64x1 .f32) (f : v.ty.Contents (Elt F)) :
    v.read (Elt F) (v.writes (Elt F) f (𝓡).2.2.1) = seenStep1 i x0 x1 x2 (k1_pay5 (F := F)) := by
  rw [View.read_writes_eq_canon _ _ _ (View.cover_of_tiledL (𝓡).2.2.1 S16x64x1.size (by sl_kernel_rfl))]
  unfold kernelRun1_A; dsimp only; sl_unfold_words
  rw [View.canon_cons_unit_zero (S := S16x64x1) hz3, View.readCov_unit_zero (S := S16x64x1) _ hz3]
  unfold seenStep1
  simp only [View.readAt_eq_ld, harg3.read_unread, harg4.read_unread, harg5.read_unread]
  rfl

end

variable (xs0 : Vec F S16x64x128 .f32) (xs1 : Vec F S16x64x1 .f32)

section
variable (hc0 : ¬cond1_0 i) (hc1 : ¬cond1_1 i)
local notation "𝓡" => kernelRun1_B c i arg3 harg3 arg4 harg4 arg5 harg5 arg6 harg6 arg7 harg7 arg8 harg8 hc0 hc1 x0 x1 x2 xs0 xs1

/-- The one store of 0 < j < 7 into the sum scratch covers it with this tile's contribution over what it held. -/
theorem sum1_B (v : View sig .tc .vmem S16x64x128 .f32) (f : v.ty.Contents (Elt F)) :
    v.read (Elt F) (v.writes (Elt F) f (𝓡).2.1) = sumStep1 i x0 x1 x2 xs0 := by
  rw [View.read_writes_eq_canon _ _ _ (View.cover_of_tiledL (𝓡).2.1 S16x64x128.size (by sl_kernel_rfl))]
  unfold kernelRun1_B; dsimp only; sl_unfold_words
  rw [View.canon_unit_zero hz3]
  unfold sumStep1
  simp only [View.readAt_eq_ld, harg3.read_unread, harg4.read_unread, harg5.read_unread, harg7.read_unread, View.ld_unit_zero (S := S16x64x128) hz3]
  rfl

/-- The same for the flag scratch. -/
theorem flag1_B (v : View sig .tc .vmem S16x64x1 .f32) (f : v.ty.Contents (Elt F)) :
    v.read (Elt F) (v.writes (Elt F) f (𝓡).2.2.1) = seenStep1 i x0 x1 x2 xs1 := by
  rw [View.read_writes_eq_canon _ _ _ (View.cover_of_tiledL (𝓡).2.2.1 S16x64x1.size (by sl_kernel_rfl))]
  unfold kernelRun1_B; dsimp only; sl_unfold_words
  rw [View.canon_unit_zero hz3]
  unfold seenStep1
  simp only [View.readAt_eq_ld, harg3.read_unread, harg4.read_unread, harg5.read_unread, harg8.read_unread, View.ld_unit_zero (S := S16x64x1) hz3]
  rfl

end

section
variable (hc0 : ¬cond1_0 i) (hc1 : cond1_1 i)
local notation "𝓡" => kernelRun1_C c i arg3 harg3 arg4 harg4 arg5 harg5 arg6 harg6 arg7 harg7 arg8 harg8 hc0 hc1 x0 x1 x2 xs0 xs1

/-- At j = 7 the sum scratch is updated as at 0 < j < 7. -/
theorem sum1_C (v : View sig .tc .vmem S16x64x128 .f32) (f : v.ty.Contents (Elt F)) :
    v.read (Elt F) (v.writes (Elt F) f (𝓡).2.1) = sumStep1 i x0 x1 x2 xs0 := by
  rw [View.read_writes_eq_canon _ _ _ (View.cover_of_tiledL (𝓡).2.1 S16x64x128.size (by sl_kernel_rfl))]
  unfold kernelRun1_C; dsimp only; sl_unfold_words
  rw [View.canon_unit_zero hz3]
  unfold sumStep1
  simp only [View.readAt_eq_ld, harg3.read_unread, harg4.read_unread, harg5.read_unread, harg7.read_unread, View.ld_unit_zero (S := S16x64x128) hz3]
  rfl

/-- The same for the flag scratch. -/
theorem flag1_C (v : View sig .tc .vmem S16x64x1 .f32) (f : v.ty.Contents (Elt F)) :
    v.read (Elt F) (v.writes (Elt F) f (𝓡).2.2.1) = seenStep1 i x0 x1 x2 xs1 := by
  rw [View.read_writes_eq_canon _ _ _ (View.cover_of_tiledL (𝓡).2.2.1 S16x64x1.size (by sl_kernel_rfl))]
  unfold kernelRun1_C; dsimp only; sl_unfold_words
  rw [View.canon_unit_zero hz3]
  unfold seenStep1
  simp only [View.readAt_eq_ld, harg3.read_unread, harg4.read_unread, harg5.read_unread, harg8.read_unread, View.ld_unit_zero (S := S16x64x1) hz3]
  rfl

/-- The one store into the output tile covers it with the lerp of the updated sum and flag with the old rows. -/
theorem tile1_C (v : View sig .tc .vmem S1x16x64x128 .f32) (f : v.ty.Contents (Elt F)) :
    v.read (Elt F) (v.writes (Elt F) f (𝓡).1) = fin1 i hc1 x1 (seenStep1 i x0 x1 x2 xs1) (sumStep1 i x0 x1 x2 xs0) := by
  rw [View.read_writes_eq_canon _ _ _ (View.cover_of_tiledL (𝓡).1 S1x16x64x128.size (by sl_kernel_rfl))]
  unfold kernelRun1_C; dsimp only; sl_unfold_words
  rw [View.canon_unit_zero hz4]
  unfold fin1 seenStep1 sumStep1
  simp only [View.readAt_eq_ld, harg3.read_unread, harg4.read_unread, harg5.read_unread, harg7.read_unread, harg8.read_unread, View.ld_unit_zero (S := S16x64x128) hz3, View.ld_unit_zero (S := S16x64x1) hz3, View.readCov_unit_zero (S := S16x64x128) _ hz3, View.readCov_unit_zero (S := S16x64x1) _ hz3]
  rfl

end

end

/-- One point from the scratch pair a: the pair after this tile's contribution, and the tile stored at j = 7 (elsewhere a value nothing reads). -/
def ptAt1 (c : Dev nD) (t : Fin cfg1.N) (a : Vec F S16x64x128 .f32 × Vec F S16x64x1 .f32) : Vec F S1x16x64x128 .f32 × Vec F S16x64x128 .f32 × Vec F S16x64x1 .f32 :=
  let s := sumStep1 (grid1.coords t) (iblk1 V c 0 t) (iblk1 V c 1 t) (iblk1 V c 2 t) a.1
  let f := seenStep1 (grid1.coords t) (iblk1 V c 0 t) (iblk1 V c 1 t) (iblk1 V c 2 t) a.2
  (if h : cond1_1 (grid1.coords t) then fin1 (grid1.coords t) h (iblk1 V c 1 t) f s else VO1_3.read (Elt F) VO1_3.junk, s, f)

/-- After the body at position n: (output tile, sum, flag); the pair restarts from the reset values at j = 0. -/
def outsAt1 (V : (c : Dev nD) → (b : Ref sig .tc) → Buf (Elt F) ((c : Thread nD τ).loc b)) (c : Dev nD) : (n : ℕ) → n < cfg1.N → Vec F S1x16x64x128 .f32 × Vec F S16x64x128 .f32 × Vec F S16x64x1 .f32
  | 0, hn => ptAt1 V c ⟨0, hn⟩ (k1_pay4, k1_pay5)
  | n + 1, hn => ptAt1 V c ⟨n + 1, hn⟩ (if (n + 1) % 8 = 0 then (k1_pay4, k1_pay5) else (outsAt1 V c n (Nat.lt_of_succ_lt hn)).2)

theorem sc1_first (c : Dev nD) (t : Fin cfg1.N) (h0 : t.val % 8 = 0) :
    (outsAt1 V c t.val t.isLt).2 =
      (sumStep1 (grid1.coords t) (iblk1 V c 0 t) (iblk1 V c 1 t) (iblk1 V c 2 t) (k1_pay4 (F := F)),
       seenStep1 (grid1.coords t) (iblk1 V c 0 t) (iblk1 V c 1 t) (iblk1 V c 2 t) (k1_pay5 (F := F))) := by
  obtain ⟨n, hn⟩ := t
  cases n with
  | zero => rfl
  | succ n => exact congrArg (fun a => (ptAt1 V c ⟨n + 1, hn⟩ a).2) (if_pos h0)

theorem sc1_next (c : Dev nD) (t : Fin cfg1.N) (h0 : ¬ t.val % 8 = 0) :
    (outsAt1 V c t.val t.isLt).2 =
      (sumStep1 (grid1.coords t) (iblk1 V c 0 t) (iblk1 V c 1 t) (iblk1 V c 2 t) (outsAt1 V c (t.val - 1) (Nat.lt_of_le_of_lt (Nat.sub_le _ _) t.isLt)).2.1,
       seenStep1 (grid1.coords t) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact absurd (Nat.zero_mod _) h0
  | succ n => exact congrArg (fun a => (ptAt1 V c ⟨n + 1, hn⟩ a).2) (if_neg h0)

theorem out1_last (c : Dev nD) (t : Fin cfg1.N) (h1 : t.val % 8 = 7) :
    (outsAt1 V c t.val t.isLt).1 =
      fin1 (grid1.coords t) ((hcond1_1 t).mpr h1) (iblk1 V c 1 t) (outsAt1 V c t.val t.isLt).2.2 (outsAt1 V c t.val t.isLt).2.1 := by
  obtain ⟨n, hn⟩ := t
  cases n <;> exact dif_pos _

def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2 ∗ rest1 (F := F) c ∗ (∃ r, prngReg c r))

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2 ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2 ∗ rest1 (F := F) c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) : (dat1 V c).after 3 t = (outsAt1 V c t.val t.isLt).1 := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem PhiS1_forget (c : Dev nD) : ∀ (n : ℕ) (h : n ≤ cfg1.N), PhiS1 V c n h ⊢ Pipeline.ΦA spec1 c
  | 0, _ => Idealize.SL.BI.Entails.refl _
  | n + 1, hn => by
    rw [PhiS1_succ V c n hn]
    iintro ⟨HS0, HS1, HR, Hg⟩
    iapply (PhiA1_join (F := F) c)
    isplitl [HS0]; · iexists _; iexact HS0
    isplitl [HS1]; · iexists _; iexact HS1
    isplitl [HR]; · iexact HR
    iexact Hg

set_option maxHeartbeats 4800000 in
/-- The body at any point: t mod 8 selects the case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 8 = 7
  · have h0 : ¬t.val % 8 = 0 := by omega
    rw [show (dat1 V c).leavesExact 3 t = owns (c : Thread nD τ) (ms1_3 t) fullShare ((dat1 V c).after 3 t) from by
      unfold Dat.leavesExact; rw [liveAt1_3_C t ((hcond1_1 t).mpr h1)], after1_3]
    rw [out1_last V c t h1, sc1_next V c t h0, PhiS1_pos V c t.val _ (by omega)]
    iintro ⟨⟨HS0, HS1, HR, Hg⟩, Ho, ⟨%d0, H0⟩, ⟨%d1, H1⟩, ⟨%d2, H2⟩, ⟨%d3, H3⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0]
      · unfold owns; iexists _; isplitr
        swap; · iexact HS0
        ipureintro; exact sum1_C ..
      isplitl [HS1]
      · unfold owns; iexists _; isplitr
        swap; · iexact HS1
        ipureintro; exact flag1_C ..
      isplitl [HR]; · iexact HR
      iexact Hg
    isplitl [Ho]; · iexact Ho
    isplitl [H0]; · iexact H0
    isplitl [H1]; · iexact H1
    isplitl [H2]; · iexact H2
    unfold owns; iexists _; isplitr
    swap; · iexact H3
    ipureintro; exact tile1_C ..
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [sc1_first V c t h0]
      iintro ⟨HΦ, Ho, ⟨%d0, H0⟩, ⟨%d1, H1⟩, ⟨%d2, H2⟩, ⟨%d3, H3⟩⟩
      ihave HA := (PhiS1_forget V c _ _) $$ HΦ
      ihave HA' := (PhiA1_split (F := F) c) $$ HA
      icases HA' with ⟨HS0, HS1, HR, Hg⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum1_A ..
        isplitl [HS1]
        · unfold owns; iexists _; isplitr
          swap; · iexact HS1
          ipureintro; exact flag1_A ..
        isplitl [HR]; · iexact HR
        iexact Hg
      isplitl [Ho]; · iexact Ho
      isplitl [H0]; · iexact H0
      isplitl [H1]; · iexact H1
      isplitl [H2]; · iexact H2
      iexists _; iexact H3
    · rw [sc1_next V c t h0, PhiS1_pos V c t.val _ (by omega)]
      iintro ⟨⟨HS0, HS1, HR, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum1_B ..
        isplitl [HS1]
        · unfold owns; iexists _; isplitr
          swap; · iexact HS1
          ipureintro; exact flag1_B ..
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := PhiS1_forget V c (Fin.last cfg1.N).val _

end Cert.Kernel.Hand

end
-- ==== Proof.KernelRegExp3Runs.lean ====
import proofs.«408110_j25142738550817_3_alg».proof.Proof.Gen.Kernel.Launch
import proofs.«408110_j25142738550817_3_alg».proof.Proof.Gen.Kernel.Skeleton
import proofs.«408110_j25142738550817_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole)

set_option maxHeartbeats 1000000 in
/-- j = 0: both scratch buffers are overwritten, the output tile is untouched; the witness is the pieces stored. -/
noncomputable def kernelRun3_A (hc0 : ((Scalar.cmpi .ne (Scalar.extui (Scalar.cmpi .eq (BitVec.ofNat 32 (i 2).val) 0#32)) 0#32) = 1#1)) (hc1 : ¬(k3_cond2 i = 1#1))
    (x0 : Vec F S1x16x8x128 .f32) (x1 : Vec F S1x64x64x128 .f32) (x2 : Vec F S1x16x8x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__expand_kernel i arg3 harg3 arg4 harg4 arg5 harg5 arg6 harg6 arg7 harg7 arg8 harg8) K } := by
  refine ⟨[], ?_, ?_, fun xi3 E K => ?run⟩
  case run =>
    simp only [cc3__expand_kernel_eq_skeleton]; unfold cc3__expand_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- 0 < j < 7: both scratch buffers are updated from what they held, the output tile is untouched. -/
noncomputable def kernelRun3_B (hc0 : ¬((Scalar.cmpi .ne (Scalar.extui (Scalar.cmpi .eq (BitVec.ofNat 32 (i 2).val) 0#32)) 0#32) = 1#1)) (hc1 : ¬(k3_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__expand_kernel i arg3 harg3 arg4 harg4 arg5 harg5 arg6 harg6 arg7 harg7 arg8 harg8) K } := by
  refine ⟨[], ?_, ?_, fun xi3 E K => ?run⟩
  case run =>
    simp only [cc3__expand_kernel_eq_skeleton]; unfold cc3__expand_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- j = 7: both scratch buffers are updated from what they held and the output tile is stored. -/
noncomputable def kernelRun3_C (hc0 : ¬((Scalar.cmpi .ne (Scalar.extui (Scalar.cmpi .eq (BitVec.ofNat 32 (i 2).val) 0#32)) 0#32) = 1#1)) (hc1 : (k3_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__expand_kernel i arg3 harg3 arg4 harg4 arg5 harg5 arg6 harg6 arg7 harg7 arg8 harg8) K } := by
  refine ⟨?_, ?_, ?_, fun E K => ?run⟩
  case run =>
    simp only [cc3__expand_kernel_eq_skeleton]; unfold cc3__expand_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.KernelRest3.lean ====
import proofs.«408110_j25142738550817_3_alg».proof.Proof.Gen.Kernel.Launch
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM3_0 : Memref sig .tc .vmem S16x64x128 .f32 := Memref.whole cc3_scratch0
abbrev scM3_1 : Memref sig .tc .vmem S16x64x1 .f32 := Memref.whole cc3_scratch1

def rest3 (c : Dev nD) : sProp 𝕄 :=
  Pipeline.scopedRestBut (Ix := Unit) (Name := ℕ) (U := UR sig nD τ) (Lvl := ℕ) (Val := Elt F) spec3 c [cc3_scratch0, cc3_scratch1]

theorem PhiA3_split (c : Dev nD) :
    (Pipeline.ΦA spec3 c : sProp 𝕄) ⊢ iprop((∃ d, owns (c : Thread nD τ) scM3_0 fullShare d) ∗ (∃ d, owns (c : Thread nD τ) scM3_1 fullShare d) ∗ rest3 (F := F) c ∗ (∃ r, prngReg c r)) := by
  unfold Pipeline.ΦA rest3
  rw [Pipeline.scopedRest_split_of_list spec3 c [cc3_scratch0, cc3_scratch1] (by decide) (by decide)]
  simp only [bigSepL_cons_cons, bigSepL_singleton, scM3_0, scM3_1, owns_whole]
  exact sep_assoc.trans sep_assoc

theorem PhiA3_join (c : Dev nD) :
    iprop((∃ d, owns (c : Thread nD τ) scM3_0 fullShare d) ∗ (∃ d, owns (c : Thread nD τ) scM3_1 fullShare d) ∗ rest3 (F := F) c ∗ (∃ r, prngReg c r)) ⊢ (Pipeline.ΦA spec3 c : sProp 𝕄) := by
  unfold Pipeline.ΦA rest3
  rw [Pipeline.scopedRest_split_of_list spec3 c [cc3_scratch0, cc3_scratch1] (by decide) (by decide)]
  simp only [bigSepL_cons_cons, bigSepL_singleton, scM3_0, scM3_1, owns_whole]
  exact sep_assoc'.trans sep_assoc'

end Cert.Kernel.Hand

end
-- ==== Proof.KernelRegExp3.lean ====
import proofs.«408110_j25142738550817_3_alg».proof.Proof.Gen.Kernel.Launch
import proofs.«408110_j25142738550817_3_alg».proof.Proof.Gen.Kernel.Skeleton
import proofs.«408110_j25142738550817_3_alg».proof.Proof.Gen.Kernel.Points
import proofs.«408110_j25142738550817_3_alg».proof.Proof.KernelRegExp3Runs
import proofs.«408110_j25142738550817_3_alg».proof.Proof.KernelRest3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

abbrev rG3 : Rect S1x16x8x128 := Rect.unit (s := S1x16x8x128) ![0, 0, 0, 0] S1x16x8x128.size inb_S1x16x8x128_S1x16x8x128_0_0_0_0
abbrev rM3 : Rect S1x16x8x64x1 := Rect.unit (s := S1x16x8x64x1) ![0, 0, 0, 0, 0] S1x16x8x64x1.size inb_S1x16x8x64x1_S1x16x8x64x1_0_0_0_0_0

abbrev rJ3 (i : grid3.Coords) : Rect S1x64x64x128 := Rect.unit (s := S1x64x64x128) (k3_off1 i) S1x8x64x128.size (k3_off1_inb i)

abbrev rI3 (i : grid3.Coords) (h : k3_cond2 i = 1#1) : Rect S1x64x64x128 := Rect.unit (s := S1x64x64x128) (k3_off2 i) S1x16x64x128.size (k3_off2_inb i h)

def sumStep3 (i : grid3.Coords) (x0 : Vec F S1x16x8x128 .f32) (x1 : Vec F S1x64x64x128 .f32) (x2 : Vec F S1x16x8x64x1 .f32)
    (acc : Vec F S16x64x128 .f32) : Vec F S16x64x128 .f32 :=
  k3_pay1 (k3_pay6 (View.ld x0 rG3) (View.ld x1 (rJ3 i))) (k3_pay8 (View.ld x0 rG3) (View.ld x1 (rJ3 i)) (View.ld x2 rM3)) acc

def seenStep3 (i : grid3.Coords) (x0 : Vec F S1x16x8x128 .f32) (x1 : Vec F S1x64x64x128 .f32) (x2 : Vec F S1x16x8x64x1 .f32)
    (acc : Vec F S16x64x1 .f32) : Vec F S16x64x1 .f32 :=
  k3_pay2 (k3_pay7 (View.ld x0 rG3) (View.ld x1 (rJ3 i)) (View.ld x2 rM3)) acc

def fin3 (i : grid3.Coords) (h : k3_cond2 i = 1#1) (x1 : Vec F S1x64x64x128 .f32) (seen : Vec F S16x64x1 .f32) (sum : Vec F S16x64x128 .f32) :
    Vec F S1x16x64x128 .f32 :=
  k3_pay3 (View.ld x1 (rI3 i h)) seen sum

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond3_1 (grid3.coords t) → cfg3.idle 3 (grid3.coords t) = true := by decide +kernel

theorem noFlush3_3 (t : Fin cfg3.N) (h : ¬cond3_1 (grid3.coords t)) : (cfg3.win 3).flush t = false :=
  Bool.eq_false_iff.mpr fun hf => h ((hcond3_1 t).mpr ((flush3_3 t).mp hf))

theorem liveAt3_3_C : ∀ t : Fin cfg3.N, cond3_1 (grid3.coords t) → cfg3.idle 3 (grid3.coords t) = false := by decide +kernel

abbrev VO3_3 : View sig .tc .vmem S1x16x64x128 .f32 := (Memref.whole cc3_stg3_0 : Memref sig .tc .vmem S1x16x64x128 .f32).view

abbrev ms3_0 (t : Fin cfg3.N) : Memref sig .tc .vmem S1x16x8x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64x64x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x16x8x64x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x16x64x128 .f32 := win3_3.stage (cfg3.slots t 3)
abbrev hs3_3 (t : Fin cfg3.N) : (ms3_3 t).IsWhole := hstage3_3 ((cfg3.slots t 3).cast nbuf3_3)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid3.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole) (x0 : Vec F S1x16x8x128 .f32) (x1 : Vec F S1x64x64x128 .f32) (x2 : Vec F S1x16x8x64x1 .f32)

section
variable (hc0 : cond3_0 i) (hc1 : ¬cond3_1 i)
local notation "𝓡" => kernelRun3_A c i arg3 harg3 arg4 harg4 arg5 harg5 arg6 harg6 arg7 harg7 arg8 harg8 hc0 hc1 x0 x1 x2

/-- The stores of j = 0 cover the sum scratch, the last of them with this tile's contribution over the reset value. -/
theorem sum3_A (v : View sig .tc .vmem S16x64x128 .f32) (f : v.ty.Contents (Elt F)) :
    v.read (Elt F) (v.writes (Elt F) f (𝓡).2.1) = sumStep3 i x0 x1 x2 (k3_pay4 (F := F)) := by
  rw [View.read_writes_eq_canon _ _ _ (View.cover_of_tiledL (𝓡).2.1 S16x64x128.size (by sl_kernel_rfl))]
  unfold kernelRun3_A; dsimp only; sl_unfold_words
  rw [View.canon_cons_unit_zero (S := S16x64x128) hz3, View.readCov_unit_zero (S := S16x64x128) _ hz3]
  unfold sumStep3
  simp only [View.readAt_eq_ld, harg3.read_unread, harg4.read_unread, harg5.read_unread]
  rfl

/-- The same for the flag scratch. -/
theorem flag3_A (v : View sig .tc .vmem S16x64x1 .f32) (f : v.ty.Contents (Elt F)) :
    v.read (Elt F) (v.writes (Elt F) f (𝓡).2.2.1) = seenStep3 i x0 x1 x2 (k3_pay5 (F := F)) := by
  rw [View.read_writes_eq_canon _ _ _ (View.cover_of_tiledL (𝓡).2.2.1 S16x64x1.size (by sl_kernel_rfl))]
  unfold kernelRun3_A; dsimp only; sl_unfold_words
  rw [View.canon_cons_unit_zero (S := S16x64x1) hz3, View.readCov_unit_zero (S := S16x64x1) _ hz3]
  unfold seenStep3
  simp only [View.readAt_eq_ld, harg3.read_unread, harg4.read_unread, harg5.read_unread]
  rfl

end

variable (xs0 : Vec F S16x64x128 .f32) (xs1 : Vec F S16x64x1 .f32)

section
variable (hc0 : ¬cond3_0 i) (hc1 : ¬cond3_1 i)
local notation "𝓡" => kernelRun3_B c i arg3 harg3 arg4 harg4 arg5 harg5 arg6 harg6 arg7 harg7 arg8 harg8 hc0 hc1 x0 x1 x2 xs0 xs1

/-- The one store of 0 < j < 7 into the sum scratch covers it with this tile's contribution over what it held. -/
theorem sum3_B (v : View sig .tc .vmem S16x64x128 .f32) (f : v.ty.Contents (Elt F)) :
    v.read (Elt F) (v.writes (Elt F) f (𝓡).2.1) = sumStep3 i x0 x1 x2 xs0 := by
  rw [View.read_writes_eq_canon _ _ _ (View.cover_of_tiledL (𝓡).2.1 S16x64x128.size (by sl_kernel_rfl))]
  unfold kernelRun3_B; dsimp only; sl_unfold_words
  rw [View.canon_unit_zero hz3]
  unfold sumStep3
  simp only [View.readAt_eq_ld, harg3.read_unread, harg4.read_unread, harg5.read_unread, harg7.read_unread, View.ld_unit_zero (S := S16x64x128) hz3]
  rfl

/-- The same for the flag scratch. -/
theorem flag3_B (v : View sig .tc .vmem S16x64x1 .f32) (f : v.ty.Contents (Elt F)) :
    v.read (Elt F) (v.writes (Elt F) f (𝓡).2.2.1) = seenStep3 i x0 x1 x2 xs1 := by
  rw [View.read_writes_eq_canon _ _ _ (View.cover_of_tiledL (𝓡).2.2.1 S16x64x1.size (by sl_kernel_rfl))]
  unfold kernelRun3_B; dsimp only; sl_unfold_words
  rw [View.canon_unit_zero hz3]
  unfold seenStep3
  simp only [View.readAt_eq_ld, harg3.read_unread, harg4.read_unread, harg5.read_unread, harg8.read_unread, View.ld_unit_zero (S := S16x64x1) hz3]
  rfl

end

section
variable (hc0 : ¬cond3_0 i) (hc1 : cond3_1 i)
local notation "𝓡" => kernelRun3_C c i arg3 harg3 arg4 harg4 arg5 harg5 arg6 harg6 arg7 harg7 arg8 harg8 hc0 hc1 x0 x1 x2 xs0 xs1

/-- At j = 7 the sum scratch is updated as at 0 < j < 7. -/
theorem sum3_C (v : View sig .tc .vmem S16x64x128 .f32) (f : v.ty.Contents (Elt F)) :
    v.read (Elt F) (v.writes (Elt F) f (𝓡).2.1) = sumStep3 i x0 x1 x2 xs0 := by
  rw [View.read_writes_eq_canon _ _ _ (View.cover_of_tiledL (𝓡).2.1 S16x64x128.size (by sl_kernel_rfl))]
  unfold kernelRun3_C; dsimp only; sl_unfold_words
  rw [View.canon_unit_zero hz3]
  unfold sumStep3
  simp only [View.readAt_eq_ld, harg3.read_unread, harg4.read_unread, harg5.read_unread, harg7.read_unread, View.ld_unit_zero (S := S16x64x128) hz3]
  rfl

/-- The same for the flag scratch. -/
theorem flag3_C (v : View sig .tc .vmem S16x64x1 .f32) (f : v.ty.Contents (Elt F)) :
    v.read (Elt F) (v.writes (Elt F) f (𝓡).2.2.1) = seenStep3 i x0 x1 x2 xs1 := by
  rw [View.read_writes_eq_canon _ _ _ (View.cover_of_tiledL (𝓡).2.2.1 S16x64x1.size (by sl_kernel_rfl))]
  unfold kernelRun3_C; dsimp only; sl_unfold_words
  rw [View.canon_unit_zero hz3]
  unfold seenStep3
  simp only [View.readAt_eq_ld, harg3.read_unread, harg4.read_unread, harg5.read_unread, harg8.read_unread, View.ld_unit_zero (S := S16x64x1) hz3]
  rfl

/-- The one store into the output tile covers it with the lerp of the updated sum and flag with the old rows. -/
theorem tile3_C (v : View sig .tc .vmem S1x16x64x128 .f32) (f : v.ty.Contents (Elt F)) :
    v.read (Elt F) (v.writes (Elt F) f (𝓡).1) = fin3 i hc1 x1 (seenStep3 i x0 x1 x2 xs1) (sumStep3 i x0 x1 x2 xs0) := by
  rw [View.read_writes_eq_canon _ _ _ (View.cover_of_tiledL (𝓡).1 S1x16x64x128.size (by sl_kernel_rfl))]
  unfold kernelRun3_C; dsimp only; sl_unfold_words
  rw [View.canon_unit_zero hz4]
  unfold fin3 seenStep3 sumStep3
  simp only [View.readAt_eq_ld, harg3.read_unread, harg4.read_unread, harg5.read_unread, harg7.read_unread, harg8.read_unread, View.ld_unit_zero (S := S16x64x128) hz3, View.ld_unit_zero (S := S16x64x1) hz3, View.readCov_unit_zero (S := S16x64x128) _ hz3, View.readCov_unit_zero (S := S16x64x1) _ hz3]
  rfl

end

end

/-- One point from the scratch pair a: the pair after this tile's contribution, and the tile stored at j = 7 (elsewhere a value nothing reads). -/
def ptAt3 (c : Dev nD) (t : Fin cfg3.N) (a : Vec F S16x64x128 .f32 × Vec F S16x64x1 .f32) : Vec F S1x16x64x128 .f32 × Vec F S16x64x128 .f32 × Vec F S16x64x1 .f32 :=
  let s := sumStep3 (grid3.coords t) (iblk3 V c 0 t) (iblk3 V c 1 t) (iblk3 V c 2 t) a.1
  let f := seenStep3 (grid3.coords t) (iblk3 V c 0 t) (iblk3 V c 1 t) (iblk3 V c 2 t) a.2
  (if h : cond3_1 (grid3.coords t) then fin3 (grid3.coords t) h (iblk3 V c 1 t) f s else VO3_3.read (Elt F) VO3_3.junk, s, f)

/-- After the body at position n: (output tile, sum, flag); the pair restarts from the reset values at j = 0. -/
def outsAt3 (V : (c : Dev nD) → (b : Ref sig .tc) → Buf (Elt F) ((c : Thread nD τ).loc b)) (c : Dev nD) : (n : ℕ) → n < cfg3.N → Vec F S1x16x64x128 .f32 × Vec F S16x64x128 .f32 × Vec F S16x64x1 .f32
  | 0, hn => ptAt3 V c ⟨0, hn⟩ (k3_pay4, k3_pay5)
  | n + 1, hn => ptAt3 V c ⟨n + 1, hn⟩ (if (n + 1) % 8 = 0 then (k3_pay4, k3_pay5) else (outsAt3 V c n (Nat.lt_of_succ_lt hn)).2)

theorem sc3_first (c : Dev nD) (t : Fin cfg3.N) (h0 : t.val % 8 = 0) :
    (outsAt3 V c t.val t.isLt).2 =
      (sumStep3 (grid3.coords t) (iblk3 V c 0 t) (iblk3 V c 1 t) (iblk3 V c 2 t) (k3_pay4 (F := F)),
       seenStep3 (grid3.coords t) (iblk3 V c 0 t) (iblk3 V c 1 t) (iblk3 V c 2 t) (k3_pay5 (F := F))) := by
  obtain ⟨n, hn⟩ := t
  cases n with
  | zero => rfl
  | succ n => exact congrArg (fun a => (ptAt3 V c ⟨n + 1, hn⟩ a).2) (if_pos h0)

theorem sc3_next (c : Dev nD) (t : Fin cfg3.N) (h0 : ¬ t.val % 8 = 0) :
    (outsAt3 V c t.val t.isLt).2 =
      (sumStep3 (grid3.coords t) (iblk3 V c 0 t) (iblk3 V c 1 t) (iblk3 V c 2 t) (outsAt3 V c (t.val - 1) (Nat.lt_of_le_of_lt (Nat.sub_le _ _) t.isLt)).2.1,
       seenStep3 (grid3.coords t) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact absurd (Nat.zero_mod _) h0
  | succ n => exact congrArg (fun a => (ptAt3 V c ⟨n + 1, hn⟩ a).2) (if_neg h0)

theorem out3_last (c : Dev nD) (t : Fin cfg3.N) (h1 : t.val % 8 = 7) :
    (outsAt3 V c t.val t.isLt).1 =
      fin3 (grid3.coords t) ((hcond3_1 t).mpr h1) (iblk3 V c 1 t) (outsAt3 V c t.val t.isLt).2.2 (outsAt3 V c t.val t.isLt).2.1 := by
  obtain ⟨n, hn⟩ := t
  cases n <;> exact dif_pos _

def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, hn => iprop(owns (c : Thread nD τ) scM3_0 fullShare (outsAt3 V c n hn).2.1 ∗ owns (c : Thread nD τ) scM3_1 fullShare (outsAt3 V c n hn).2.2 ∗ rest3 (F := F) c ∗ (∃ r, prngReg c r))

theorem PhiS3_succ (c : Dev nD) (n : ℕ) (hn : n < cfg3.N) :
    PhiS3 V c (n + 1) hn = iprop(owns (c : Thread nD τ) scM3_0 fullShare (outsAt3 V c n hn).2.1 ∗ owns (c : Thread nD τ) scM3_1 fullShare (outsAt3 V c n hn).2.2 ∗ rest3 (F := F) c ∗ (∃ r, prngReg c r)) := rfl

theorem PhiS3_pos (c : Dev nD) (n : ℕ) (h : n ≤ cfg3.N) (hz : n ≠ 0) :
    PhiS3 V c n h = iprop(owns (c : Thread nD τ) scM3_0 fullShare (outsAt3 V c (n - 1) (by omega)).2.1 ∗ owns (c : Thread nD τ) scM3_1 fullShare (outsAt3 V c (n - 1) (by omega)).2.2 ∗ rest3 (F := F) c ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_3 (c : Dev nD) (t : Fin cfg3.N) : (dat3 V c).after 3 t = (outsAt3 V c t.val t.isLt).1 := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem PhiS3_forget (c : Dev nD) : ∀ (n : ℕ) (h : n ≤ cfg3.N), PhiS3 V c n h ⊢ Pipeline.ΦA spec3 c
  | 0, _ => Idealize.SL.BI.Entails.refl _
  | n + 1, hn => by
    rw [PhiS3_succ V c n hn]
    iintro ⟨HS0, HS1, HR, Hg⟩
    iapply (PhiA3_join (F := F) c)
    isplitl [HS0]; · iexists _; iexact HS0
    isplitl [HS1]; · iexists _; iexact HS1
    isplitl [HR]; · iexact HR
    iexact Hg

set_option maxHeartbeats 4800000 in
/-- The body at any point: t mod 8 selects the case. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ, PhiS3_castSucc V c t]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h1 : t.val % 8 = 7
  · have h0 : ¬t.val % 8 = 0 := by omega
    rw [show (dat3 V c).leavesExact 3 t = owns (c : Thread nD τ) (ms3_3 t) fullShare ((dat3 V c).after 3 t) from by
      unfold Dat.leavesExact; rw [liveAt3_3_C t ((hcond3_1 t).mpr h1)], after3_3]
    rw [out3_last V c t h1, sc3_next V c t h0, PhiS3_pos V c t.val _ (by omega)]
    iintro ⟨⟨HS0, HS1, HR, Hg⟩, Ho, ⟨%d0, H0⟩, ⟨%d1, H1⟩, ⟨%d2, H2⟩, ⟨%d3, H3⟩⟩
    iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0]
      · unfold owns; iexists _; isplitr
        swap; · iexact HS0
        ipureintro; exact sum3_C ..
      isplitl [HS1]
      · unfold owns; iexists _; isplitr
        swap; · iexact HS1
        ipureintro; exact flag3_C ..
      isplitl [HR]; · iexact HR
      iexact Hg
    isplitl [Ho]; · iexact Ho
    isplitl [H0]; · iexact H0
    isplitl [H1]; · iexact H1
    isplitl [H2]; · iexact H2
    unfold owns; iexists _; isplitr
    swap; · iexact H3
    ipureintro; exact tile3_C ..
  · rw [Dat.leavesExact_idle (dat3 V c) 3 t (idleAt3_3 t (fun h => h1 ((hcond3_1 t).mp h))) (noFlush3_3 t (fun h => h1 ((hcond3_1 t).mp h)))]
    by_cases h0 : t.val % 8 = 0
    · rw [sc3_first V c t h0]
      iintro ⟨HΦ, Ho, ⟨%d0, H0⟩, ⟨%d1, H1⟩, ⟨%d2, H2⟩, ⟨%d3, H3⟩⟩
      ihave HA := (PhiS3_forget V c _ _) $$ HΦ
      ihave HA' := (PhiA3_split (F := F) c) $$ HA
      icases HA' with ⟨HS0, HS1, HR, Hg⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum3_A ..
        isplitl [HS1]
        · unfold owns; iexists _; isplitr
          swap; · iexact HS1
          ipureintro; exact flag3_A ..
        isplitl [HR]; · iexact HR
        iexact Hg
      isplitl [Ho]; · iexact Ho
      isplitl [H0]; · iexact H0
      isplitl [H1]; · iexact H1
      isplitl [H2]; · iexact H2
      iexists _; iexact H3
    · rw [sc3_next V c t h0, PhiS3_pos V c t.val _ (by omega)]
      iintro ⟨⟨HS0, HS1, HR, Hg⟩, Ho, ⟨%d0, H0⟩, ⟨%d1, H1⟩, ⟨%d2, H2⟩, ⟨%d3, H3⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum3_B ..
        isplitl [HS1]
        · unfold owns; iexists _; isplitr
          swap; · iexact HS1
          ipureintro; exact flag3_B ..
        isplitl [HR]; · iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := PhiS3_forget V c (Fin.last cfg3.N).val _

end Cert.Kernel.Hand

end
-- ==== Proof.KernelFold.lean ====
import proofs.«408110_j25142738550817_3_alg».proof.Proof.KernelRegMat0
import proofs.«408110_j25142738550817_3_alg».proof.Proof.KernelRegMat2
import proofs.«408110_j25142738550817_3_alg».proof.Proof.KernelRegExp1
import proofs.«408110_j25142738550817_3_alg».proof.Proof.KernelRegExp3

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c (Proc.devRef .tc b)

/-- The contents of the arrays at the boundaries between @main's ten items, from the launch memory on. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
def W4 (c : Dev nD) : Valuation τ sig (Elt F) :=
  Pipeline.withArrays spec0 c (W3 m c) fun w => (dat0 (atTc (W3 m)) c).arrAt w cfg0.N
abbrev W5 : Dev nD → Valuation τ sig (Elt F) := fun c => StableHlo.after hostOps1 (W4 m c)
def W6 (c : Dev nD) : Valuation τ sig (Elt F) :=
  Pipeline.withArrays spec1 c (W5 m c) fun w => (dat1 (atTc (W5 m)) c).arrAt w cfg1.N
abbrev W7 : Dev nD → Valuation τ sig (Elt F) := fun c => StableHlo.after hostOps2 (W6 m c)
def W8 (c : Dev nD) : Valuation τ sig (Elt F) :=
  Pipeline.withArrays spec2 c (W7 m c) fun w => (dat2 (atTc (W7 m)) c).arrAt w cfg2.N
abbrev W9 : Dev nD → Valuation τ sig (Elt F) := fun c => StableHlo.after hostOps3 (W8 m c)
def W10 (c : Dev nD) : Valuation τ sig (Elt F) :=
  Pipeline.withArrays spec3 c (W9 m c) fun w => (dat3 (atTc (W9 m)) c).arrAt w cfg3.N

theorem W4_arr (c : Dev nD) (w : Fin cfg0.W) :
    W4 m c (Proc.devRef .tc (Pipeline.arrRef spec0 w)) = (dat0 (atTc (W3 m)) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
theorem W6_arr (c : Dev nD) (w : Fin cfg1.W) :
    W6 m c (Proc.devRef .tc (Pipeline.arrRef spec1 w)) = (dat1 (atTc (W5 m)) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
theorem W8_arr (c : Dev nD) (w : Fin cfg2.W) :
    W8 m c (Proc.devRef .tc (Pipeline.arrRef spec2 w)) = (dat2 (atTc (W7 m)) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
theorem W10_arr (c : Dev nD) (w : Fin cfg3.W) :
    W10 m c (Proc.devRef .tc (Pipeline.arrRef spec3 w)) = (dat3 (atTc (W9 m)) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

end Cert.Kernel.Hand

end
-- ==== Proof.KernelRun.lean ====
import proofs.«408110_j25142738550817_3_alg».proof.Proof.KernelFold
import proofs.«408110_j25142738550817_3_alg».proof.Proof.Gen.Kernel.Regions
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Contents that are the same at every two consecutive boundaries are the launch contents at the last. -/
theorem W10_launch (c : Dev nD) (b : Ref sig .tc)
    (hd : (b ∉ hostOps0_W ∧ b ∉ hostOps0_1_W ∧ b ∉ hostOps0_2_W ∧ b ∉ hostOps1_W ∧ b ∉ hostOps2_W ∧ b ∉ hostOps3_W)
      ∧ (∀ w, Pipeline.arrRef spec1 w ≠ b) ∧ ∀ w, Pipeline.arrRef spec3 w ≠ b)
    (h4 : W4 m c (Proc.devRef .tc b) = W3 m c (Proc.devRef .tc b))
    (h8 : W8 m c (Proc.devRef .tc b) = W7 m c (Proc.devRef .tc b)) :
    W10 m c (Proc.devRef .tc b) = m ((c : Thread nD τ).loc b) :=
  (W10_of_ne m c b hd.2.2).trans <| (StableHlo.after_of_writes_sub hostOps3 _ hostOps3_writes hd.1.2.2.2.2.2).trans <|
  h8.trans <| (StableHlo.after_of_writes_sub hostOps2 _ hostOps2_writes hd.1.2.2.2.2.1).trans <|
  (W6_of_ne m c b hd.2.1).trans <| (StableHlo.after_of_writes_sub hostOps1 _ hostOps1_writes hd.1.2.2.2.1).trans <|
  h4.trans <| (StableHlo.after_of_writes_sub hostOps0_2 _ hostOps0_2_writes hd.1.2.2.1).trans <|
  (StableHlo.after_of_writes_sub hostOps0_1 _ hostOps0_1_writes hd.1.2.1).trans <|
  StableHlo.after_of_writes_sub hostOps0 _ hostOps0_writes hd.1.1

def pdats : (p : Fin 4) → (c : Dev nD) → Dat τ (Elt F) Unit ℕ (UR sig nD τ) ℕ (Pipeline.pin (pcfgs (F := F)) adm p) c
  | ⟨0, _⟩ => fun c => dat0 (atTc (W3 m)) c
  | ⟨1, _⟩ => fun c => dat1 (atTc (W5 m)) c
  | ⟨2, _⟩ => fun c => dat2 (atTc (W7 m)) c
  | ⟨3, _⟩ => fun c => dat3 (atTc (W9 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Kernel call `p` as a segment from the boundary at `Wa` to the one at `Wb`, which differ only at the call's arrays. -/
def regOf (p : Fin 4) (lf : Pipeline.LaunchFacts (nD := nD) (τ := τ) cfgs p) (Wa Wb : Dev nD → Valuation τ sig (Elt F))
    (hbody : ∀ c, Pipeline.BodyObligationLoose (pdats m p c) defs₀ 𝒱₀ () Set.univ)
    (howed : ∀ c t, (pdats m p c).owed t = 0) (hrec : ∀ c t, (pdats m p c).recorded t = Set.univ)
    (hq : ∀ c w, (pdats m p c).q w = fullShare)
    (hA : ∀ c w, (pdats m p c).A w = atTc Wa c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (harr : ∀ c w, Wb c (Proc.devRef .tc (Pipeline.arrRef (cfgs p).spec w)) = (pdats m p c).arrAt w (cfgs p).N)
    (hne : ∀ c (b : Ref sig .tc), (∀ w, Pipeline.arrRef (cfgs p).spec w ≠ b) → Wb c (Proc.devRef .tc b) = Wa c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre := T Wa
  post := T Wb
  X c := iprop(∃ r, prngReg c r)
  Y c := iprop(∃ r, prngReg c r)
  Z c := Pipeline.unscopedRest (Ix := Unit) (Name := ℕ) (U := UR sig nD τ) (Lvl := ℕ) (cfgs p).spec c (atTc Wa c)
  hentry c := by
    have hsplit := Pipeline.arrays_of_unscopedBufs (p := p) (pcfgs (F := F)) adm (pdats m) lf.win lf.arr_whole c
      ((pdats m p c).share_full (hq c)) (atTc Wa c) (hA c)
    rw [Pipeline.unscopedBufs_held] at hsplit
    unfold Pipeline.Dat.owesAt Pipeline.owesWithin Pipeline.Dat.bound
    rw [Pipeline.ownSems0_none, howed, hrec]
    iintro ⟨⟨Hub, Hp, %W, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Wa c) (atTc Wb c) ((pdats m p c).arrAt · (cfgs p).N) (fun w => (harr c w).symm)
      fun b hb => hne c b fun w e => hb (Finset.mem_image.mpr ⟨w, Finset.mem_univ _, e⟩)
    rw [Pipeline.unscopedBufs_held] at hjoin
    unfold Pipeline.Dat.owesAt Pipeline.owesWithin
    rw [howed]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m 0 launch0 (W3 m) (W4 m) (fun c => (body_obligation0 _ c).loose) (fun _ _ => rfl) (fun _ _ => rfl)
  (fun _ _ => rfl) (fun _ _ => rfl) (fun _ => .rfl) (fun _ => .rfl) (W4_arr m) (W4_of_ne m)
def reg1 := regOf m 1 launch1 (W5 m) (W6 m) (fun c => (body_obligation1 _ c).loose) (fun _ _ => rfl) (fun _ _ => rfl)
  (fun _ _ => rfl) (fun _ _ => rfl) (hin1 _) (hout1 _) (W6_arr m) (W6_of_ne m)
def reg2 := regOf m 2 launch2 (W7 m) (W8 m) (fun c => (body_obligation2 _ c).loose) (fun _ _ => rfl) (fun _ _ => rfl)
  (fun _ _ => rfl) (fun _ _ => rfl) (fun _ => .rfl) (fun _ => .rfl) (W8_arr m) (W8_of_ne m)
def reg3 := regOf m 3 launch3 (W9 m) (W10 m) (fun c => (body_obligation3 _ c).loose) (fun _ _ => rfl) (fun _ _ => rfl)
  (fun _ _ => rfl) (fun _ _ => rfl) (hin3 _) (hout3 _) (W10_arr m) (W10_of_ne m)

/-- @main's ten items in order, each from its boundary's contents. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]
theorem main_run (c : Dev nD) : main (F := F) c = Pipeline.Seg.run (segs m) := (main_chain c).trans (by chain_rfl)

/-- The ten segments chain from the launch memory to the last boundary, whose contents the final state is read against. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- `main_arg3` is window 1 of regions 0 and 2, an input: its array there keeps its entry contents. -/
theorem run_result (ρ : Dev nD → PrngReg) : θ_run defs (onTc (τ := τ) (main (F := F))) ⟨m, fun _ => 0, ρ⟩ (fun r => ∀ c : Dev nD,
      r.2.mem ((c.tc : Thread nD τ).loc main_v29) = W10 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v29 (by decide)),
     (h c _ (mem_uc main_arg0 (by decide))).trans (W10_launch m c main_arg0 (by decide) (W4_of_ne m c _ (by decide)) (W8_of_ne m c _ (by decide))),
     (h c _ (mem_uc main_arg1 (by decide))).trans (W10_launch m c main_arg1 (by decide) (W4_of_ne m c _ (by decide)) (W8_of_ne m c _ (by decide))),
     (h c _ (mem_uc main_arg2 (by decide))).trans (W10_launch m c main_arg2 (by decide) (W4_of_ne m c _ (by decide)) (W8_of_ne m c _ (by decide))),
     (h c _ (mem_uc main_arg3 (by decide))).trans (W10_launch m c main_arg3 (by decide)
       ((W4_arr m c 1).trans (((dat0 (atTc (W3 m)) c).arrAt_in 1 rfl _).trans (A_eq0 (atTc (W3 m)) c 1)))
       ((W8_arr m c 1).trans (((dat2 (atTc (W7 m)) c).arrAt_in 1 rfl _).trans (A_eq2 (atTc (W7 m)) c 1))))⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Hand

end
-- ==== Proof.KernelIdealRegMat0.lean ====
import proofs.«408110_j25142738550817_3_alg».proof.Proof.Gen.KernelIdeal.Launch
import proofs.«408110_j25142738550817_3_alg».proof.Proof.Gen.KernelIdeal.Skeleton
import proofs.«408110_j25142738550817_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1024x128 := Rect.unit (s := S1024x128) ![0, 0] S1024x128.size inb_S1024x128_S1024x128_0_0
abbrev rW0 : Rect S128x128 := Rect.unit (s := S128x128) ![0, 0] S128x128.size inb_S128x128_S128x128_0_0

def out0_2 (x0 : Vec F S1024x128 .f32) (x1 : Vec F S128x128 .f32) : Vec F S1024x128 .f32 :=
  View.canon [⟨rA0, k0_pay1 (View.ld x0 rA0) (View.ld x1 rW0)⟩]

theorem cover0_2 (p0 : Vec F S1024x128 .f32) (y : S1024x128.Idx) :
    ∃ pc ∈ ([⟨rA0, p0⟩] : List (View.Piece (Elt F) S1024x128 .f32)), y ∈ pc.1.set :=
  View.cover_of_tiled [⟨rA0, p0⟩] S1024x128.size (by rfl) y

set_option maxHeartbeats 1000000 in
theorem sound_kernel0 (c : Dev nD) (E : Set ℕ) (i : grid0.Coords) (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRegMat2.lean ====
import proofs.«408110_j25142738550817_3_alg».proof.Proof.Gen.KernelIdeal.Launch
import proofs.«408110_j25142738550817_3_alg».proof.Proof.Gen.KernelIdeal.Skeleton
import proofs.«408110_j25142738550817_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1024x128 := Rect.unit (s := S1024x128) ![0, 0] S1024x128.size inb_S1024x128_S1024x128_0_0
abbrev rW2 : Rect S128x128 := Rect.unit (s := S128x128) ![0, 0] S128x128.size inb_S128x128_S128x128_0_0

def out2_2 (x0 : Vec F S1024x128 .f32) (x1 : Vec F S128x128 .f32) : Vec F S1024x128 .f32 :=
  View.canon [⟨rA2, k2_pay1 (View.ld x0 rA2) (View.ld x1 rW2)⟩]

theorem cover2_2 (p0 : Vec F S1024x128 .f32) (y : S1024x128.Idx) :
    ∃ pc ∈ ([⟨rA2, p0⟩] : List (View.Piece (Elt F) S1024x128 .f32)), y ∈ pc.1.set :=
  View.cover_of_tiled [⟨rA2, p0⟩] S1024x128.size (by rfl) y

set_option maxHeartbeats 1000000 in
theorem sound_kernel2 (c : Dev nD) (E : Set ℕ) (i : grid2.Coords) (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRegExp1Runs.lean ====
import proofs.«408110_j25142738550817_3_alg».proof.Proof.Gen.KernelIdeal.Launch
import proofs.«408110_j25142738550817_3_alg».proof.Proof.Gen.KernelIdeal.Skeleton
import proofs.«408110_j25142738550817_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole)

set_option maxHeartbeats 1000000 in
/-- j = 0: both scratch buffers are overwritten, the output tile is untouched; the witness is the pieces stored. -/
noncomputable def kernelRun1_A (hc0 : ((Scalar.cmpi .ne (Scalar.extui (Scalar.cmpi .eq (BitVec.ofNat 32 (i 2).val) 0#32)) 0#32) = 1#1)) (hc1 : ¬(k1_cond2 i = 1#1))
    (x0 : Vec F S1x16x8x128 .f32) (x1 : Vec F S1x64x64x128 .f32) (x2 : Vec F S1x16x8x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__expand_kernel i arg3 harg3 arg4 harg4 arg5 harg5 arg6 harg6 arg7 harg7 arg8 harg8) K } := by
  refine ⟨[], ?_, ?_, fun xi3 E K => ?run⟩
  case run =>
    simp only [cc1__expand_kernel_eq_skeleton]; unfold cc1__expand_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- 0 < j < 7: both scratch buffers are updated from what they held, the output tile is untouched. -/
noncomputable def kernelRun1_B (hc0 : ¬((Scalar.cmpi .ne (Scalar.extui (Scalar.cmpi .eq (BitVec.ofNat 32 (i 2).val) 0#32)) 0#32) = 1#1)) (hc1 : ¬(k1_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__expand_kernel i arg3 harg3 arg4 harg4 arg5 harg5 arg6 harg6 arg7 harg7 arg8 harg8) K } := by
  refine ⟨[], ?_, ?_, fun xi3 E K => ?run⟩
  case run =>
    simp only [cc1__expand_kernel_eq_skeleton]; unfold cc1__expand_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- j = 7: both scratch buffers are updated from what they held and the output tile is stored. -/
noncomputable def kernelRun1_C (hc0 : ¬((Scalar.cmpi .ne (Scalar.extui (Scalar.cmpi .eq (BitVec.ofNat 32 (i 2).val) 0#32)) 0#32) = 1#1)) (hc1 : (k1_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__expand_kernel i arg3 harg3 arg4 harg4 arg5 harg5 arg6 harg6 arg7 harg7 arg8 harg8) K } := by
  refine ⟨?_, ?_, ?_, fun E K => ?run⟩
  case run =>
    simp only [cc1__expand_kernel_eq_skeleton]; unfold cc1__expand_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KernelIdealRest1.lean ====
import proofs.«408110_j25142738550817_3_alg».proof.Proof.Gen.KernelIdeal.Launch
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM1_0 : Memref sig .tc .vmem S16x64x128 .f32 := Memref.whole cc1_scratch0
abbrev scM1_1 : Memref sig .tc .vmem S16x64x1 .f32 := Memref.whole cc1_scratch1

def rest1 (c : Dev nD) : sProp 𝕄 :=
  Pipeline.scopedRestBut (Ix := Unit) (Name := ℕ) (U := UR sig nD τ) (Lvl := ℕ) (Val := Elt F) spec1 c [cc1_scratch0, cc1_scratch1]

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ rest1 (F := F) c ∗ (∃ r, prngReg c r)) := by
  unfold Pipeline.ΦA rest1
  rw [Pipeline.scopedRest_split_of_list spec1 c [cc1_scratch0, cc1_scratch1] (by decide) (by decide)]
  simp only [bigSepL_cons_cons, bigSepL_singleton, scM1_0, scM1_1, owns_whole]
  exact sep_assoc.trans sep_assoc

theorem PhiA1_join (c : Dev nD) :
    iprop((∃ d, owns (c : Thread nD τ) scM1_0 fullShare d) ∗ (∃ d, owns (c : Thread nD τ) scM1_1 fullShare d) ∗ rest1 (F := F) c ∗ (∃ r, prngReg c r)) ⊢ (Pipeline.ΦA spec1 c : sProp 𝕄) := by
  unfold Pipeline.ΦA rest1
  rw [Pipeline.scopedRest_split_of_list spec1 c [cc1_scratch0, cc1_scratch1] (by decide) (by decide)]
  simp only [bigSepL_cons_cons, bigSepL_singleton, scM1_0, scM1_1, owns_whole]
  exact sep_assoc'.trans sep_assoc'

end Cert.KernelIdeal.Hand

end
-- ==== Proof.KernelIdealRegExp1.lean ====
import proofs.«408110_j25142738550817_3_alg».proof.Proof.Gen.KernelIdeal.Launch
import proofs.«408110_j25142738550817_3_alg».proof.Proof.Gen.KernelIdeal.Skeleton
import proofs.«408110_j25142738550817_3_alg».proof.Proof.Gen.KernelIdeal.Points
import proofs.«408110_j25142738550817_3_alg».proof.Proof.KernelIdealRegExp1Runs
import proofs.«408110_j25142738550817_3_alg».proof.Proof.KernelIdealRest1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

abbrev rG1 : Rect S1x16x8x128 := Rect.unit (s := S1x16x8x128) ![0, 0, 0, 0] S1x16x8x128.size inb_S1x16x8x128_S1x16x8x128_0_0_0_0
abbrev rM1 : Rect S1x16x8x64x1 := Rect.unit (s := S1x16x8x64x1) ![0, 0, 0, 0, 0] S1x16x8x64x1.size inb_S1x16x8x64x1_S1x16x8x64x1_0_0_0_0_0

abbrev rJ1 (i : grid1.Coords) : Rect S1x64x64x128 := Rect.unit (s := S1x64x64x128) (k1_off1 i) S1x8x64x128.size (k1_off1_inb i)

abbrev rI1 (i : grid1.Coords) (h : k1_cond2 i = 1#1) : Rect S1x64x64x128 := Rect.unit (s := S1x64x64x128) (k1_off2 i) S1x16x64x128.size (k1_off2_inb i h)

def sumStep1 (i : grid1.Coords) (x0 : Vec F S1x16x8x128 .f32) (x1 : Vec F S1x64x64x128 .f32) (x2 : Vec F S1x16x8x64x1 .f32)
    (acc : Vec F S16x64x128 .f32) : Vec F S16x64x128 .f32 :=
  k1_pay1 (k1_pay6 (View.ld x0 rG1) (View.ld x1 (rJ1 i))) (k1_pay8 (View.ld x0 rG1) (View.ld x1 (rJ1 i)) (View.ld x2 rM1)) acc

def seenStep1 (i : grid1.Coords) (x0 : Vec F S1x16x8x128 .f32) (x1 : Vec F S1x64x64x128 .f32) (x2 : Vec F S1x16x8x64x1 .f32)
    (acc : Vec F S16x64x1 .f32) : Vec F S16x64x1 .f32 :=
  k1_pay2 (k1_pay7 (View.ld x0 rG1) (View.ld x1 (rJ1 i)) (View.ld x2 rM1)) acc

def fin1 (i : grid1.Coords) (h : k1_cond2 i = 1#1) (x1 : Vec F S1x64x64x128 .f32) (seen : Vec F S16x64x1 .f32) (sum : Vec F S16x64x128 .f32) :
    Vec F S1x16x64x128 .f32 :=
  k1_pay3 (View.ld x1 (rI1 i h)) seen sum

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := by decide +kernel

theorem noFlush1_3 (t : Fin cfg1.N) (h : ¬cond1_1 (grid1.coords t)) : (cfg1.win 3).flush t = false :=
  Bool.eq_false_iff.mpr fun hf => h ((hcond1_1 t).mpr ((flush1_3 t).mp hf))

theorem liveAt1_3_C : ∀ t : Fin cfg1.N, cond1_1 (grid1.coords t) → cfg1.idle 3 (grid1.coords t) = false := by decide +kernel

abbrev VO1_3 : View sig .tc .vmem S1x16x64x128 .f32 := (Memref.whole cc1_stg3_0 : Memref sig .tc .vmem S1x16x64x128 .f32).view

abbrev ms1_0 (t : Fin cfg1.N) : Memref sig .tc .vmem S1x16x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x8x64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x64x128 .f32 := win1_3.stage (cfg1.slots t 3)
abbrev hs1_3 (t : Fin cfg1.N) : (ms1_3 t).IsWhole := hstage1_3 ((cfg1.slots t 3).cast nbuf1_3)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid1.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole) (x0 : Vec F S1x16x8x128 .f32) (x1 : Vec F S1x64x64x128 .f32) (x2 : Vec F S1x16x8x64x1 .f32)

section
variable (hc0 : cond1_0 i) (hc1 : ¬cond1_1 i)
local notation "𝓡" => kernelRun1_A c i arg3 harg3 arg4 harg4 arg5 harg5 arg6 harg6 arg7 harg7 arg8 harg8 hc0 hc1 x0 x1 x2

/-- The stores of j = 0 cover the sum scratch, the last of them with this tile's contribution over the reset value. -/
theorem sum1_A (v : View sig .tc .vmem S16x64x128 .f32) (f : v.ty.Contents (Elt F)) :
    v.read (Elt F) (v.writes (Elt F) f (𝓡).2.1) = sumStep1 i x0 x1 x2 (k1_pay4 (F := F)) := by
  rw [View.read_writes_eq_canon _ _ _ (View.cover_of_tiledL (𝓡).2.1 S16x64x128.size (by sl_kernel_rfl))]
  unfold kernelRun1_A; dsimp only; sl_unfold_words
  rw [View.canon_cons_unit_zero (S := S16x64x128) hz3, View.readCov_unit_zero (S := S16x64x128) _ hz3]
  unfold sumStep1
  simp only [View.readAt_eq_ld, harg3.read_unread, harg4.read_unread, harg5.read_unread]
  rfl

/-- The same for the flag scratch. -/
theorem flag1_A (v : View sig .tc .vmem S16x64x1 .f32) (f : v.ty.Contents (Elt F)) :
    v.read (Elt F) (v.writes (Elt F) f (𝓡).2.2.1) = seenStep1 i x0 x1 x2 (k1_pay5 (F := F)) := by
  rw [View.read_writes_eq_canon _ _ _ (View.cover_of_tiledL (𝓡).2.2.1 S16x64x1.size (by sl_kernel_rfl))]
  unfold kernelRun1_A; dsimp only; sl_unfold_words
  rw [View.canon_cons_unit_zero (S := S16x64x1) hz3, View.readCov_unit_zero (S := S16x64x1) _ hz3]
  unfold seenStep1
  simp only [View.readAt_eq_ld, harg3.read_unread, harg4.read_unread, harg5.read_unread]
  rfl

end

variable (xs0 : Vec F S16x64x128 .f32) (xs1 : Vec F S16x64x1 .f32)

section
variable (hc0 : ¬cond1_0 i) (hc1 : ¬cond1_1 i)
local notation "𝓡" => kernelRun1_B c i arg3 harg3 arg4 harg4 arg5 harg5 arg6 harg6 arg7 harg7 arg8 harg8 hc0 hc1 x0 x1 x2 xs0 xs1

/-- The one store of 0 < j < 7 into the sum scratch covers it with this tile's contribution over what it held. -/
theorem sum1_B (v : View sig .tc .vmem S16x64x128 .f32) (f : v.ty.Contents (Elt F)) :
    v.read (Elt F) (v.writes (Elt F) f (𝓡).2.1) = sumStep1 i x0 x1 x2 xs0 := by
  rw [View.read_writes_eq_canon _ _ _ (View.cover_of_tiledL (𝓡).2.1 S16x64x128.size (by sl_kernel_rfl))]
  unfold kernelRun1_B; dsimp only; sl_unfold_words
  rw [View.canon_unit_zero hz3]
  unfold sumStep1
  simp only [View.readAt_eq_ld, harg3.read_unread, harg4.read_unread, harg5.read_unread, harg7.read_unread, View.ld_unit_zero (S := S16x64x128) hz3]
  rfl

/-- The same for the flag scratch. -/
theorem flag1_B (v : View sig .tc .vmem S16x64x1 .f32) (f : v.ty.Contents (Elt F)) :
    v.read (Elt F) (v.writes (Elt F) f (𝓡).2.2.1) = seenStep1 i x0 x1 x2 xs1 := by
  rw [View.read_writes_eq_canon _ _ _ (View.cover_of_tiledL (𝓡).2.2.1 S16x64x1.size (by sl_kernel_rfl))]
  unfold kernelRun1_B; dsimp only; sl_unfold_words
  rw [View.canon_unit_zero hz3]
  unfold seenStep1
  simp only [View.readAt_eq_ld, harg3.read_unread, harg4.read_unread, harg5.read_unread, harg8.read_unread, View.ld_unit_zero (S := S16x64x1) hz3]
  rfl

end

section
variable (hc0 : ¬cond1_0 i) (hc1 : cond1_1 i)
local notation "𝓡" => kernelRun1_C c i arg3 harg3 arg4 harg4 arg5 harg5 arg6 harg6 arg7 harg7 arg8 harg8 hc0 hc1 x0 x1 x2 xs0 xs1

/-- At j = 7 the sum scratch is updated as at 0 < j < 7. -/
theorem sum1_C (v : View sig .tc .vmem S16x64x128 .f32) (f : v.ty.Contents (Elt F)) :
    v.read (Elt F) (v.writes (Elt F) f (𝓡).2.1) = sumStep1 i x0 x1 x2 xs0 := by
  rw [View.read_writes_eq_canon _ _ _ (View.cover_of_tiledL (𝓡).2.1 S16x64x128.size (by sl_kernel_rfl))]
  unfold kernelRun1_C; dsimp only; sl_unfold_words
  rw [View.canon_unit_zero hz3]
  unfold sumStep1
  simp only [View.readAt_eq_ld, harg3.read_unread, harg4.read_unread, harg5.read_unread, harg7.read_unread, View.ld_unit_zero (S := S16x64x128) hz3]
  rfl

/-- The same for the flag scratch. -/
theorem flag1_C (v : View sig .tc .vmem S16x64x1 .f32) (f : v.ty.Contents (Elt F)) :
    v.read (Elt F) (v.writes (Elt F) f (𝓡).2.2.1) = seenStep1 i x0 x1 x2 xs1 := by
  rw [View.read_writes_eq_canon _ _ _ (View.cover_of_tiledL (𝓡).2.2.1 S16x64x1.size (by sl_kernel_rfl))]
  unfold kernelRun1_C; dsimp only; sl_unfold_words
  rw [View.canon_unit_zero hz3]
  unfold seenStep1
  simp only [View.readAt_eq_ld, harg3.read_unread, harg4.read_unread, harg5.read_unread, harg8.read_unread, View.ld_unit_zero (S := S16x64x1) hz3]
  rfl

/-- The one store into the output tile covers it with the lerp of the updated sum and flag with the old rows. -/
theorem tile1_C (v : View sig .tc .vmem S1x16x64x128 .f32) (f : v.ty.Contents (Elt F)) :
    v.read (Elt F) (v.writes (Elt F) f (𝓡).1) = fin1 i hc1 x1 (seenStep1 i x0 x1 x2 xs1) (sumStep1 i x0 x1 x2 xs0) := by
  rw [View.read_writes_eq_canon _ _ _ (View.cover_of_tiledL (𝓡).1 S1x16x64x128.size (by sl_kernel_rfl))]
  unfold kernelRun1_C; dsimp only; sl_unfold_words
  rw [View.canon_unit_zero hz4]
  unfold fin1 seenStep1 sumStep1
  simp only [View.readAt_eq_ld, harg3.read_unread, harg4.read_unread, harg5.read_unread, harg7.read_unread, harg8.read_unread, View.ld_unit_zero (S := S16x64x128) hz3, View.ld_unit_zero (S := S16x64x1) hz3, View.readCov_unit_zero (S := S16x64x128) _ hz3, View.readCov_unit_zero (S := S16x64x1) _ hz3]
  rfl

end

end

/-- One point from the scratch pair a: the pair after this tile's contribution, and the tile stored at j = 7 (elsewhere a value nothing reads). -/
def ptAt1 (c : Dev nD) (t : Fin cfg1.N) (a : Vec F S16x64x128 .f32 × Vec F S16x64x1 .f32) : Vec F S1x16x64x128 .f32 × Vec F S16x64x128 .f32 × Vec F S16x64x1 .f32 :=
  let s := sumStep1 (grid1.coords t) (iblk1 V c 0 t) (iblk1 V c 1 t) (iblk1 V c 2 t) a.1
  let f := seenStep1 (grid1.coords t) (iblk1 V c 0 t) (iblk1 V c 1 t) (iblk1 V c 2 t) a.2
  (if h : cond1_1 (grid1.coords t) then fin1 (grid1.coords t) h (iblk1 V c 1 t) f s else VO1_3.read (Elt F) VO1_3.junk, s, f)

/-- After the body at position n: (output tile, sum, flag); the pair restarts from the reset values at j = 0. -/
def outsAt1 (V : (c : Dev nD) → (b : Ref sig .tc) → Buf (Elt F) ((c : Thread nD τ).loc b)) (c : Dev nD) : (n : ℕ) → n < cfg1.N → Vec F S1x16x64x128 .f32 × Vec F S16x64x128 .f32 × Vec F S16x64x1 .f32
  | 0, hn => ptAt1 V c ⟨0, hn⟩ (k1_pay4, k1_pay5)
  | n + 1, hn => ptAt1 V c ⟨n + 1, hn⟩ (if (n + 1) % 8 = 0 then (k1_pay4, k1_pay5) else (outsAt1 V c n (Nat.lt_of_succ_lt hn)).2)

theorem sc1_first (c : Dev nD) (t : Fin cfg1.N) (h0 : t.val % 8 = 0) :
    (outsAt1 V c t.val t.isLt).2 =
      (sumStep1 (grid1.coords t) (iblk1 V c 0 t) (iblk1 V c 1 t) (iblk1 V c 2 t) (k1_pay4 (F := F)),
       seenStep1 (grid1.coords t) (iblk1 V c 0 t) (iblk1 V c 1 t) (iblk1 V c 2 t) (k1_pay5 (F := F))) := by
  obtain ⟨n, hn⟩ := t
  cases n with
  | zero => rfl
  | succ n => exact congrArg (fun a => (ptAt1 V c ⟨n + 1, hn⟩ a).2) (if_pos h0)

theorem sc1_next (c : Dev nD) (t : Fin cfg1.N) (h0 : ¬ t.val % 8 = 0) :
    (outsAt1 V c t.val t.isLt).2 =
      (sumStep1 (grid1.coords t) (iblk1 V c 0 t) (iblk1 V c 1 t) (iblk1 V c 2 t) (outsAt1 V c (t.val - 1) (Nat.lt_of_le_of_lt (Nat.sub_le _ _) t.isLt)).2.1,
       seenStep1 (grid1.coords t) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact absurd (Nat.zero_mod _) h0
  | succ n => exact congrArg (fun a => (ptAt1 V c ⟨n + 1, hn⟩ a).2) (if_neg h0)

theorem out1_last (c : Dev nD) (t : Fin cfg1.N) (h1 : t.val % 8 = 7) :
    (outsAt1 V c t.val t.isLt).1 =
      fin1 (grid1.coords t) ((hcond1_1 t).mpr h1) (iblk1 V c 1 t) (outsAt1 V c t.val t.isLt).2.2 (outsAt1 V c t.val t.isLt).2.1 := by
  obtain ⟨n, hn⟩ := t
  cases n <;> exact dif_pos _

def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2 ∗ rest1 (F := F) c ∗ (∃ r, prngReg c r))

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2 ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2 ∗ rest1 (F := F) c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) : (dat1 V c).after 3 t = (outsAt1 V c t.val t.isLt).1 := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem PhiS1_forget (c : Dev nD) : ∀ (n : ℕ) (h : n ≤ cfg1.N), PhiS1 V c n h ⊢ Pipeline.ΦA spec1 c
  | 0, _ => Idealize.SL.BI.Entails.refl _
  | n + 1, hn => by
    rw [PhiS1_succ V c n hn]
    iintro ⟨HS0, HS1, HR, Hg⟩
    iapply (PhiA1_join (F := F) c)
    isplitl [HS0]; · iexists _; iexact HS0
    isplitl [HS1]; · iexists _; iexact HS1
    isplitl [HR]; · iexact HR
    iexact Hg

set_option maxHeartbeats 4800000 in
/-- The body at any point: t mod 8 selects the case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 8 = 7
  · have h0 : ¬t.val % 8 = 0 := by omega
    rw [show (dat1 V c).leavesExact 3 t = owns (c : Thread nD τ) (ms1_3 t) fullShare ((dat1 V c).after 3 t) from by
      unfold Dat.leavesExact; rw [liveAt1_3_C t ((hcond1_1 t).mpr h1)], after1_3]
    rw [out1_last V c t h1, sc1_next V c t h0, PhiS1_pos V c t.val _ (by omega)]
    iintro ⟨⟨HS0, HS1, HR, Hg⟩, Ho, ⟨%d0, H0⟩, ⟨%d1, H1⟩, ⟨%d2, H2⟩, ⟨%d3, H3⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0]
      · unfold owns; iexists _; isplitr
        swap; · iexact HS0
        ipureintro; exact sum1_C ..
      isplitl [HS1]
      · unfold owns; iexists _; isplitr
        swap; · iexact HS1
        ipureintro; exact flag1_C ..
      isplitl [HR]; · iexact HR
      iexact Hg
    isplitl [Ho]; · iexact Ho
    isplitl [H0]; · iexact H0
    isplitl [H1]; · iexact H1
    isplitl [H2]; · iexact H2
    unfold owns; iexists _; isplitr
    swap; · iexact H3
    ipureintro; exact tile1_C ..
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [sc1_first V c t h0]
      iintro ⟨HΦ, Ho, ⟨%d0, H0⟩, ⟨%d1, H1⟩, ⟨%d2, H2⟩, ⟨%d3, H3⟩⟩
      ihave HA := (PhiS1_forget V c _ _) $$ HΦ
      ihave HA' := (PhiA1_split (F := F) c) $$ HA
      icases HA' with ⟨HS0, HS1, HR, Hg⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum1_A ..
        isplitl [HS1]
        · unfold owns; iexists _; isplitr
          swap; · iexact HS1
          ipureintro; exact flag1_A ..
        isplitl [HR]; · iexact HR
        iexact Hg
      isplitl [Ho]; · iexact Ho
      isplitl [H0]; · iexact H0
      isplitl [H1]; · iexact H1
      isplitl [H2]; · iexact H2
      iexists _; iexact H3
    · rw [sc1_next V c t h0, PhiS1_pos V c t.val _ (by omega)]
      iintro ⟨⟨HS0, HS1, HR, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum1_B ..
        isplitl [HS1]
        · unfold owns; iexists _; isplitr
          swap; · iexact HS1
          ipureintro; exact flag1_B ..
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := PhiS1_forget V c (Fin.last cfg1.N).val _

end Cert.KernelIdeal.Hand

end
-- ==== Proof.KernelIdealRegExp3Runs.lean ====
import proofs.«408110_j25142738550817_3_alg».proof.Proof.Gen.KernelIdeal.Launch
import proofs.«408110_j25142738550817_3_alg».proof.Proof.Gen.KernelIdeal.Skeleton
import proofs.«408110_j25142738550817_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole)

set_option maxHeartbeats 1000000 in
/-- j = 0: both scratch buffers are overwritten, the output tile is untouched; the witness is the pieces stored. -/
noncomputable def kernelRun3_A (hc0 : ((Scalar.cmpi .ne (Scalar.extui (Scalar.cmpi .eq (BitVec.ofNat 32 (i 2).val) 0#32)) 0#32) = 1#1)) (hc1 : ¬(k3_cond2 i = 1#1))
    (x0 : Vec F S1x16x8x128 .f32) (x1 : Vec F S1x64x64x128 .f32) (x2 : Vec F S1x16x8x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__expand_kernel i arg3 harg3 arg4 harg4 arg5 harg5 arg6 harg6 arg7 harg7 arg8 harg8) K } := by
  refine ⟨[], ?_, ?_, fun xi3 E K => ?run⟩
  case run =>
    simp only [cc3__expand_kernel_eq_skeleton]; unfold cc3__expand_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- 0 < j < 7: both scratch buffers are updated from what they held, the output tile is untouched. -/
noncomputable def kernelRun3_B (hc0 : ¬((Scalar.cmpi .ne (Scalar.extui (Scalar.cmpi .eq (BitVec.ofNat 32 (i 2).val) 0#32)) 0#32) = 1#1)) (hc1 : ¬(k3_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (xi3 : Vec F S1x16x64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__expand_kernel i arg3 harg3 arg4 harg4 arg5 harg5 arg6 harg6 arg7 harg7 arg8 harg8) K } := by
  refine ⟨[], ?_, ?_, fun xi3 E K => ?run⟩
  case run =>
    simp only [cc3__expand_kernel_eq_skeleton]; unfold cc3__expand_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 1000000 in
/-- j = 7: both scratch buffers are updated from what they held and the output tile is stored. -/
noncomputable def kernelRun3_C (hc0 : ¬((Scalar.cmpi .ne (Scalar.extui (Scalar.cmpi .eq (BitVec.ofNat 32 (i 2).val) 0#32)) 0#32) = 1#1)) (hc1 : (k3_cond2 i = 1#1))
    (x0 : Vec F S1x16x8x128 .f32) (x1 : Vec F S1x64x64x128 .f32) (x2 : Vec F S1x16x8x64x1 .f32) (xs0 : Vec F S16x64x128 .f32) (xs1 : Vec F S16x64x1 .f32) :
    Σ' (L3 : List (View.Piece (Elt F) S1x16x64x128 .f32)) (LS0 : List (View.Piece (Elt F) S16x64x128 .f32)), { LS1 : List (View.Piece (Elt F) S16x64x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__expand_kernel i arg3 harg3 arg4 harg4 arg5 harg5 arg6 harg6 arg7 harg7 arg8 harg8) K } := by
  refine ⟨?_, ?_, ?_, fun E K => ?run⟩
  case run =>
    simp only [cc3__expand_kernel_eq_skeleton]; unfold cc3__expand_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KernelIdealRest3.lean ====
import proofs.«408110_j25142738550817_3_alg».proof.Proof.Gen.KernelIdeal.Launch
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM3_0 : Memref sig .tc .vmem S16x64x128 .f32 := Memref.whole cc3_scratch0
abbrev scM3_1 : Memref sig .tc .vmem S16x64x1 .f32 := Memref.whole cc3_scratch1

def rest3 (c : Dev nD) : sProp 𝕄 :=
  Pipeline.scopedRestBut (Ix := Unit) (Name := ℕ) (U := UR sig nD τ) (Lvl := ℕ) (Val := Elt F) spec3 c [cc3_scratch0, cc3_scratch1]

theorem PhiA3_split (c : Dev nD) :
    (Pipeline.ΦA spec3 c : sProp 𝕄) ⊢ iprop((∃ d, owns (c : Thread nD τ) scM3_0 fullShare d) ∗ (∃ d, owns (c : Thread nD τ) scM3_1 fullShare d) ∗ rest3 (F := F) c ∗ (∃ r, prngReg c r)) := by
  unfold Pipeline.ΦA rest3
  rw [Pipeline.scopedRest_split_of_list spec3 c [cc3_scratch0, cc3_scratch1] (by decide) (by decide)]
  simp only [bigSepL_cons_cons, bigSepL_singleton, scM3_0, scM3_1, owns_whole]
  exact sep_assoc.trans sep_assoc

theorem PhiA3_join (c : Dev nD) :
    iprop((∃ d, owns (c : Thread nD τ) scM3_0 fullShare d) ∗ (∃ d, owns (c : Thread nD τ) scM3_1 fullShare d) ∗ rest3 (F := F) c ∗ (∃ r, prngReg c r)) ⊢ (Pipeline.ΦA spec3 c : sProp 𝕄) := by
  unfold Pipeline.ΦA rest3
  rw [Pipeline.scopedRest_split_of_list spec3 c [cc3_scratch0, cc3_scratch1] (by decide) (by decide)]
  simp only [bigSepL_cons_cons, bigSepL_singleton, scM3_0, scM3_1, owns_whole]
  exact sep_assoc'.trans sep_assoc'

end Cert.KernelIdeal.Hand

end
-- ==== Proof.KernelIdealRegExp3.lean ====
import proofs.«408110_j25142738550817_3_alg».proof.Proof.Gen.KernelIdeal.Launch
import proofs.«408110_j25142738550817_3_alg».proof.Proof.Gen.KernelIdeal.Skeleton
import proofs.«408110_j25142738550817_3_alg».proof.Proof.Gen.KernelIdeal.Points
import proofs.«408110_j25142738550817_3_alg».proof.Proof.KernelIdealRegExp3Runs
import proofs.«408110_j25142738550817_3_alg».proof.Proof.KernelIdealRest3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

abbrev rG3 : Rect S1x16x8x128 := Rect.unit (s := S1x16x8x128) ![0, 0, 0, 0] S1x16x8x128.size inb_S1x16x8x128_S1x16x8x128_0_0_0_0
abbrev rM3 : Rect S1x16x8x64x1 := Rect.unit (s := S1x16x8x64x1) ![0, 0, 0, 0, 0] S1x16x8x64x1.size inb_S1x16x8x64x1_S1x16x8x64x1_0_0_0_0_0

abbrev rJ3 (i : grid3.Coords) : Rect S1x64x64x128 := Rect.unit (s := S1x64x64x128) (k3_off1 i) S1x8x64x128.size (k3_off1_inb i)

abbrev rI3 (i : grid3.Coords) (h : k3_cond2 i = 1#1) : Rect S1x64x64x128 := Rect.unit (s := S1x64x64x128) (k3_off2 i) S1x16x64x128.size (k3_off2_inb i h)

def sumStep3 (i : grid3.Coords) (x0 : Vec F S1x16x8x128 .f32) (x1 : Vec F S1x64x64x128 .f32) (x2 : Vec F S1x16x8x64x1 .f32)
    (acc : Vec F S16x64x128 .f32) : Vec F S16x64x128 .f32 :=
  k3_pay1 (k3_pay6 (View.ld x0 rG3) (View.ld x1 (rJ3 i))) (k3_pay8 (View.ld x0 rG3) (View.ld x1 (rJ3 i)) (View.ld x2 rM3)) acc

def seenStep3 (i : grid3.Coords) (x0 : Vec F S1x16x8x128 .f32) (x1 : Vec F S1x64x64x128 .f32) (x2 : Vec F S1x16x8x64x1 .f32)
    (acc : Vec F S16x64x1 .f32) : Vec F S16x64x1 .f32 :=
  k3_pay2 (k3_pay7 (View.ld x0 rG3) (View.ld x1 (rJ3 i)) (View.ld x2 rM3)) acc

def fin3 (i : grid3.Coords) (h : k3_cond2 i = 1#1) (x1 : Vec F S1x64x64x128 .f32) (seen : Vec F S16x64x1 .f32) (sum : Vec F S16x64x128 .f32) :
    Vec F S1x16x64x128 .f32 :=
  k3_pay3 (View.ld x1 (rI3 i h)) seen sum

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond3_1 (grid3.coords t) → cfg3.idle 3 (grid3.coords t) = true := by decide +kernel

theorem noFlush3_3 (t : Fin cfg3.N) (h : ¬cond3_1 (grid3.coords t)) : (cfg3.win 3).flush t = false :=
  Bool.eq_false_iff.mpr fun hf => h ((hcond3_1 t).mpr ((flush3_3 t).mp hf))

theorem liveAt3_3_C : ∀ t : Fin cfg3.N, cond3_1 (grid3.coords t) → cfg3.idle 3 (grid3.coords t) = false := by decide +kernel

abbrev VO3_3 : View sig .tc .vmem S1x16x64x128 .f32 := (Memref.whole cc3_stg3_0 : Memref sig .tc .vmem S1x16x64x128 .f32).view

abbrev ms3_0 (t : Fin cfg3.N) : Memref sig .tc .vmem S1x16x8x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64x64x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x16x8x64x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x16x64x128 .f32 := win3_3.stage (cfg3.slots t 3)
abbrev hs3_3 (t : Fin cfg3.N) : (ms3_3 t).IsWhole := hstage3_3 ((cfg3.slots t 3).cast nbuf3_3)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid3.Coords) (arg3 : Memref sig .tc .vmem S1x16x8x128 .f32) (harg3 : arg3.IsWhole) (arg4 : Memref sig .tc .vmem S1x64x64x128 .f32) (harg4 : arg4.IsWhole) (arg5 : Memref sig .tc .vmem S1x16x8x64x1 .f32) (harg5 : arg5.IsWhole) (arg6 : Memref sig .tc .vmem S1x16x64x128 .f32) (harg6 : arg6.IsWhole) (arg7 : Memref sig .tc .vmem S16x64x128 .f32) (harg7 : arg7.IsWhole) (arg8 : Memref sig .tc .vmem S16x64x1 .f32) (harg8 : arg8.IsWhole) (x0 : Vec F S1x16x8x128 .f32) (x1 : Vec F S1x64x64x128 .f32) (x2 : Vec F S1x16x8x64x1 .f32)

section
variable (hc0 : cond3_0 i) (hc1 : ¬cond3_1 i)
local notation "𝓡" => kernelRun3_A c i arg3 harg3 arg4 harg4 arg5 harg5 arg6 harg6 arg7 harg7 arg8 harg8 hc0 hc1 x0 x1 x2

/-- The stores of j = 0 cover the sum scratch, the last of them with this tile's contribution over the reset value. -/
theorem sum3_A (v : View sig .tc .vmem S16x64x128 .f32) (f : v.ty.Contents (Elt F)) :
    v.read (Elt F) (v.writes (Elt F) f (𝓡).2.1) = sumStep3 i x0 x1 x2 (k3_pay4 (F := F)) := by
  rw [View.read_writes_eq_canon _ _ _ (View.cover_of_tiledL (𝓡).2.1 S16x64x128.size (by sl_kernel_rfl))]
  unfold kernelRun3_A; dsimp only; sl_unfold_words
  rw [View.canon_cons_unit_zero (S := S16x64x128) hz3, View.readCov_unit_zero (S := S16x64x128) _ hz3]
  unfold sumStep3
  simp only [View.readAt_eq_ld, harg3.read_unread, harg4.read_unread, harg5.read_unread]
  rfl

/-- The same for the flag scratch. -/
theorem flag3_A (v : View sig .tc .vmem S16x64x1 .f32) (f : v.ty.Contents (Elt F)) :
    v.read (Elt F) (v.writes (Elt F) f (𝓡).2.2.1) = seenStep3 i x0 x1 x2 (k3_pay5 (F := F)) := by
  rw [View.read_writes_eq_canon _ _ _ (View.cover_of_tiledL (𝓡).2.2.1 S16x64x1.size (by sl_kernel_rfl))]
  unfold kernelRun3_A; dsimp only; sl_unfold_words
  rw [View.canon_cons_unit_zero (S := S16x64x1) hz3, View.readCov_unit_zero (S := S16x64x1) _ hz3]
  unfold seenStep3
  simp only [View.readAt_eq_ld, harg3.read_unread, harg4.read_unread, harg5.read_unread]
  rfl

end

variable (xs0 : Vec F S16x64x128 .f32) (xs1 : Vec F S16x64x1 .f32)

section
variable (hc0 : ¬cond3_0 i) (hc1 : ¬cond3_1 i)
local notation "𝓡" => kernelRun3_B c i arg3 harg3 arg4 harg4 arg5 harg5 arg6 harg6 arg7 harg7 arg8 harg8 hc0 hc1 x0 x1 x2 xs0 xs1

/-- The one store of 0 < j < 7 into the sum scratch covers it with this tile's contribution over what it held. -/
theorem sum3_B (v : View sig .tc .vmem S16x64x128 .f32) (f : v.ty.Contents (Elt F)) :
    v.read (Elt F) (v.writes (Elt F) f (𝓡).2.1) = sumStep3 i x0 x1 x2 xs0 := by
  rw [View.read_writes_eq_canon _ _ _ (View.cover_of_tiledL (𝓡).2.1 S16x64x128.size (by sl_kernel_rfl))]
  unfold kernelRun3_B; dsimp only; sl_unfold_words
  rw [View.canon_unit_zero hz3]
  unfold sumStep3
  simp only [View.readAt_eq_ld, harg3.read_unread, harg4.read_unread, harg5.read_unread, harg7.read_unread, View.ld_unit_zero (S := S16x64x128) hz3]
  rfl

/-- The same for the flag scratch. -/
theorem flag3_B (v : View sig .tc .vmem S16x64x1 .f32) (f : v.ty.Contents (Elt F)) :
    v.read (Elt F) (v.writes (Elt F) f (𝓡).2.2.1) = seenStep3 i x0 x1 x2 xs1 := by
  rw [View.read_writes_eq_canon _ _ _ (View.cover_of_tiledL (𝓡).2.2.1 S16x64x1.size (by sl_kernel_rfl))]
  unfold kernelRun3_B; dsimp only; sl_unfold_words
  rw [View.canon_unit_zero hz3]
  unfold seenStep3
  simp only [View.readAt_eq_ld, harg3.read_unread, harg4.read_unread, harg5.read_unread, harg8.read_unread, View.ld_unit_zero (S := S16x64x1) hz3]
  rfl

end

section
variable (hc0 : ¬cond3_0 i) (hc1 : cond3_1 i)
local notation "𝓡" => kernelRun3_C c i arg3 harg3 arg4 harg4 arg5 harg5 arg6 harg6 arg7 harg7 arg8 harg8 hc0 hc1 x0 x1 x2 xs0 xs1

/-- At j = 7 the sum scratch is updated as at 0 < j < 7. -/
theorem sum3_C (v : View sig .tc .vmem S16x64x128 .f32) (f : v.ty.Contents (Elt F)) :
    v.read (Elt F) (v.writes (Elt F) f (𝓡).2.1) = sumStep3 i x0 x1 x2 xs0 := by
  rw [View.read_writes_eq_canon _ _ _ (View.cover_of_tiledL (𝓡).2.1 S16x64x128.size (by sl_kernel_rfl))]
  unfold kernelRun3_C; dsimp only; sl_unfold_words
  rw [View.canon_unit_zero hz3]
  unfold sumStep3
  simp only [View.readAt_eq_ld, harg3.read_unread, harg4.read_unread, harg5.read_unread, harg7.read_unread, View.ld_unit_zero (S := S16x64x128) hz3]
  rfl

/-- The same for the flag scratch. -/
theorem flag3_C (v : View sig .tc .vmem S16x64x1 .f32) (f : v.ty.Contents (Elt F)) :
    v.read (Elt F) (v.writes (Elt F) f (𝓡).2.2.1) = seenStep3 i x0 x1 x2 xs1 := by
  rw [View.read_writes_eq_canon _ _ _ (View.cover_of_tiledL (𝓡).2.2.1 S16x64x1.size (by sl_kernel_rfl))]
  unfold kernelRun3_C; dsimp only; sl_unfold_words
  rw [View.canon_unit_zero hz3]
  unfold seenStep3
  simp only [View.readAt_eq_ld, harg3.read_unread, harg4.read_unread, harg5.read_unread, harg8.read_unread, View.ld_unit_zero (S := S16x64x1) hz3]
  rfl

/-- The one store into the output tile covers it with the lerp of the updated sum and flag with the old rows. -/
theorem tile3_C (v : View sig .tc .vmem S1x16x64x128 .f32) (f : v.ty.Contents (Elt F)) :
    v.read (Elt F) (v.writes (Elt F) f (𝓡).1) = fin3 i hc1 x1 (seenStep3 i x0 x1 x2 xs1) (sumStep3 i x0 x1 x2 xs0) := by
  rw [View.read_writes_eq_canon _ _ _ (View.cover_of_tiledL (𝓡).1 S1x16x64x128.size (by sl_kernel_rfl))]
  unfold kernelRun3_C; dsimp only; sl_unfold_words
  rw [View.canon_unit_zero hz4]
  unfold fin3 seenStep3 sumStep3
  simp only [View.readAt_eq_ld, harg3.read_unread, harg4.read_unread, harg5.read_unread, harg7.read_unread, harg8.read_unread, View.ld_unit_zero (S := S16x64x128) hz3, View.ld_unit_zero (S := S16x64x1) hz3, View.readCov_unit_zero (S := S16x64x128) _ hz3, View.readCov_unit_zero (S := S16x64x1) _ hz3]
  rfl

end

end

/-- One point from the scratch pair a: the pair after this tile's contribution, and the tile stored at j = 7 (elsewhere a value nothing reads). -/
def ptAt3 (c : Dev nD) (t : Fin cfg3.N) (a : Vec F S16x64x128 .f32 × Vec F S16x64x1 .f32) : Vec F S1x16x64x128 .f32 × Vec F S16x64x128 .f32 × Vec F S16x64x1 .f32 :=
  let s := sumStep3 (grid3.coords t) (iblk3 V c 0 t) (iblk3 V c 1 t) (iblk3 V c 2 t) a.1
  let f := seenStep3 (grid3.coords t) (iblk3 V c 0 t) (iblk3 V c 1 t) (iblk3 V c 2 t) a.2
  (if h : cond3_1 (grid3.coords t) then fin3 (grid3.coords t) h (iblk3 V c 1 t) f s else VO3_3.read (Elt F) VO3_3.junk, s, f)

/-- After the body at position n: (output tile, sum, flag); the pair restarts from the reset values at j = 0. -/
def outsAt3 (V : (c : Dev nD) → (b : Ref sig .tc) → Buf (Elt F) ((c : Thread nD τ).loc b)) (c : Dev nD) : (n : ℕ) → n < cfg3.N → Vec F S1x16x64x128 .f32 × Vec F S16x64x128 .f32 × Vec F S16x64x1 .f32
  | 0, hn => ptAt3 V c ⟨0, hn⟩ (k3_pay4, k3_pay5)
  | n + 1, hn => ptAt3 V c ⟨n + 1, hn⟩ (if (n + 1) % 8 = 0 then (k3_pay4, k3_pay5) else (outsAt3 V c n (Nat.lt_of_succ_lt hn)).2)

theorem sc3_first (c : Dev nD) (t : Fin cfg3.N) (h0 : t.val % 8 = 0) :
    (outsAt3 V c t.val t.isLt).2 =
      (sumStep3 (grid3.coords t) (iblk3 V c 0 t) (iblk3 V c 1 t) (iblk3 V c 2 t) (k3_pay4 (F := F)),
       seenStep3 (grid3.coords t) (iblk3 V c 0 t) (iblk3 V c 1 t) (iblk3 V c 2 t) (k3_pay5 (F := F))) := by
  obtain ⟨n, hn⟩ := t
  cases n with
  | zero => rfl
  | succ n => exact congrArg (fun a => (ptAt3 V c ⟨n + 1, hn⟩ a).2) (if_pos h0)

theorem sc3_next (c : Dev nD) (t : Fin cfg3.N) (h0 : ¬ t.val % 8 = 0) :
    (outsAt3 V c t.val t.isLt).2 =
      (sumStep3 (grid3.coords t) (iblk3 V c 0 t) (iblk3 V c 1 t) (iblk3 V c 2 t) (outsAt3 V c (t.val - 1) (Nat.lt_of_le_of_lt (Nat.sub_le _ _) t.isLt)).2.1,
       seenStep3 (grid3.coords t) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact absurd (Nat.zero_mod _) h0
  | succ n => exact congrArg (fun a => (ptAt3 V c ⟨n + 1, hn⟩ a).2) (if_neg h0)

theorem out3_last (c : Dev nD) (t : Fin cfg3.N) (h1 : t.val % 8 = 7) :
    (outsAt3 V c t.val t.isLt).1 =
      fin3 (grid3.coords t) ((hcond3_1 t).mpr h1) (iblk3 V c 1 t) (outsAt3 V c t.val t.isLt).2.2 (outsAt3 V c t.val t.isLt).2.1 := by
  obtain ⟨n, hn⟩ := t
  cases n <;> exact dif_pos _

def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, hn => iprop(owns (c : Thread nD τ) scM3_0 fullShare (outsAt3 V c n hn).2.1 ∗ owns (c : Thread nD τ) scM3_1 fullShare (outsAt3 V c n hn).2.2 ∗ rest3 (F := F) c ∗ (∃ r, prngReg c r))

theorem PhiS3_succ (c : Dev nD) (n : ℕ) (hn : n < cfg3.N) :
    PhiS3 V c (n + 1) hn = iprop(owns (c : Thread nD τ) scM3_0 fullShare (outsAt3 V c n hn).2.1 ∗ owns (c : Thread nD τ) scM3_1 fullShare (outsAt3 V c n hn).2.2 ∗ rest3 (F := F) c ∗ (∃ r, prngReg c r)) := rfl

theorem PhiS3_pos (c : Dev nD) (n : ℕ) (h : n ≤ cfg3.N) (hz : n ≠ 0) :
    PhiS3 V c n h = iprop(owns (c : Thread nD τ) scM3_0 fullShare (outsAt3 V c (n - 1) (by omega)).2.1 ∗ owns (c : Thread nD τ) scM3_1 fullShare (outsAt3 V c (n - 1) (by omega)).2.2 ∗ rest3 (F := F) c ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_3 (c : Dev nD) (t : Fin cfg3.N) : (dat3 V c).after 3 t = (outsAt3 V c t.val t.isLt).1 := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem PhiS3_forget (c : Dev nD) : ∀ (n : ℕ) (h : n ≤ cfg3.N), PhiS3 V c n h ⊢ Pipeline.ΦA spec3 c
  | 0, _ => Idealize.SL.BI.Entails.refl _
  | n + 1, hn => by
    rw [PhiS3_succ V c n hn]
    iintro ⟨HS0, HS1, HR, Hg⟩
    iapply (PhiA3_join (F := F) c)
    isplitl [HS0]; · iexists _; iexact HS0
    isplitl [HS1]; · iexists _; iexact HS1
    isplitl [HR]; · iexact HR
    iexact Hg

set_option maxHeartbeats 4800000 in
/-- The body at any point: t mod 8 selects the case. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ, PhiS3_castSucc V c t]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h1 : t.val % 8 = 7
  · have h0 : ¬t.val % 8 = 0 := by omega
    rw [show (dat3 V c).leavesExact 3 t = owns (c : Thread nD τ) (ms3_3 t) fullShare ((dat3 V c).after 3 t) from by
      unfold Dat.leavesExact; rw [liveAt3_3_C t ((hcond3_1 t).mpr h1)], after3_3]
    rw [out3_last V c t h1, sc3_next V c t h0, PhiS3_pos V c t.val _ (by omega)]
    iintro ⟨⟨HS0, HS1, HR, Hg⟩, Ho, ⟨%d0, H0⟩, ⟨%d1, H1⟩, ⟨%d2, H2⟩, ⟨%d3, H3⟩⟩
    iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0]
      · unfold owns; iexists _; isplitr
        swap; · iexact HS0
        ipureintro; exact sum3_C ..
      isplitl [HS1]
      · unfold owns; iexists _; isplitr
        swap; · iexact HS1
        ipureintro; exact flag3_C ..
      isplitl [HR]; · iexact HR
      iexact Hg
    isplitl [Ho]; · iexact Ho
    isplitl [H0]; · iexact H0
    isplitl [H1]; · iexact H1
    isplitl [H2]; · iexact H2
    unfold owns; iexists _; isplitr
    swap; · iexact H3
    ipureintro; exact tile3_C ..
  · rw [Dat.leavesExact_idle (dat3 V c) 3 t (idleAt3_3 t (fun h => h1 ((hcond3_1 t).mp h))) (noFlush3_3 t (fun h => h1 ((hcond3_1 t).mp h)))]
    by_cases h0 : t.val % 8 = 0
    · rw [sc3_first V c t h0]
      iintro ⟨HΦ, Ho, ⟨%d0, H0⟩, ⟨%d1, H1⟩, ⟨%d2, H2⟩, ⟨%d3, H3⟩⟩
      ihave HA := (PhiS3_forget V c _ _) $$ HΦ
      ihave HA' := (PhiA3_split (F := F) c) $$ HA
      icases HA' with ⟨HS0, HS1, HR, Hg⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum3_A ..
        isplitl [HS1]
        · unfold owns; iexists _; isplitr
          swap; · iexact HS1
          ipureintro; exact flag3_A ..
        isplitl [HR]; · iexact HR
        iexact Hg
      isplitl [Ho]; · iexact Ho
      isplitl [H0]; · iexact H0
      isplitl [H1]; · iexact H1
      isplitl [H2]; · iexact H2
      iexists _; iexact H3
    · rw [sc3_next V c t h0, PhiS3_pos V c t.val _ (by omega)]
      iintro ⟨⟨HS0, HS1, HR, Hg⟩, Ho, ⟨%d0, H0⟩, ⟨%d1, H1⟩, ⟨%d2, H2⟩, ⟨%d3, H3⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0]
        · unfold owns; iexists _; isplitr
          swap; · iexact HS0
          ipureintro; exact sum3_B ..
        isplitl [HS1]
        · unfold owns; iexists _; isplitr
          swap; · iexact HS1
          ipureintro; exact flag3_B ..
        isplitl [HR]; · iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := PhiS3_forget V c (Fin.last cfg3.N).val _

end Cert.KernelIdeal.Hand

end
-- ==== Proof.KernelIdealFold.lean ====
import proofs.«408110_j25142738550817_3_alg».proof.Proof.KernelIdealRegMat0
import proofs.«408110_j25142738550817_3_alg».proof.Proof.KernelIdealRegMat2
import proofs.«408110_j25142738550817_3_alg».proof.Proof.KernelIdealRegExp1
import proofs.«408110_j25142738550817_3_alg».proof.Proof.KernelIdealRegExp3

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c (Proc.devRef .tc b)

/-- The contents of the arrays at the boundaries between @main's ten items, from the launch memory on. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
def W4 (c : Dev nD) : Valuation τ sig (Elt F) :=
  Pipeline.withArrays spec0 c (W3 m c) fun w => (dat0 (atTc (W3 m)) c).arrAt w cfg0.N
abbrev W5 : Dev nD → Valuation τ sig (Elt F) := fun c => StableHlo.after hostOps1 (W4 m c)
def W6 (c : Dev nD) : Valuation τ sig (Elt F) :=
  Pipeline.withArrays spec1 c (W5 m c) fun w => (dat1 (atTc (W5 m)) c).arrAt w cfg1.N
abbrev W7 : Dev nD → Valuation τ sig (Elt F) := fun c => StableHlo.after hostOps2 (W6 m c)
def W8 (c : Dev nD) : Valuation τ sig (Elt F) :=
  Pipeline.withArrays spec2 c (W7 m c) fun w => (dat2 (atTc (W7 m)) c).arrAt w cfg2.N
abbrev W9 : Dev nD → Valuation τ sig (Elt F) := fun c => StableHlo.after hostOps3 (W8 m c)
def W10 (c : Dev nD) : Valuation τ sig (Elt F) :=
  Pipeline.withArrays spec3 c (W9 m c) fun w => (dat3 (atTc (W9 m)) c).arrAt w cfg3.N

theorem W4_arr (c : Dev nD) (w : Fin cfg0.W) :
    W4 m c (Proc.devRef .tc (Pipeline.arrRef spec0 w)) = (dat0 (atTc (W3 m)) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
theorem W6_arr (c : Dev nD) (w : Fin cfg1.W) :
    W6 m c (Proc.devRef .tc (Pipeline.arrRef spec1 w)) = (dat1 (atTc (W5 m)) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
theorem W8_arr (c : Dev nD) (w : Fin cfg2.W) :
    W8 m c (Proc.devRef .tc (Pipeline.arrRef spec2 w)) = (dat2 (atTc (W7 m)) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
theorem W10_arr (c : Dev nD) (w : Fin cfg3.W) :
    W10 m c (Proc.devRef .tc (Pipeline.arrRef spec3 w)) = (dat3 (atTc (W9 m)) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

end Cert.KernelIdeal.Hand

end
-- ==== Proof.KernelIdealRun.lean ====
import proofs.«408110_j25142738550817_3_alg».proof.Proof.KernelIdealFold
import proofs.«408110_j25142738550817_3_alg».proof.Proof.Gen.KernelIdeal.Regions
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Contents that are the same at every two consecutive boundaries are the launch contents at the last. -/
theorem W10_launch (c : Dev nD) (b : Ref sig .tc)
    (hd : (b ∉ hostOps0_W ∧ b ∉ hostOps0_1_W ∧ b ∉ hostOps0_2_W ∧ b ∉ hostOps1_W ∧ b ∉ hostOps2_W ∧ b ∉ hostOps3_W)
      ∧ (∀ w, Pipeline.arrRef spec1 w ≠ b) ∧ ∀ w, Pipeline.arrRef spec3 w ≠ b)
    (h4 : W4 m c (Proc.devRef .tc b) = W3 m c (Proc.devRef .tc b))
    (h8 : W8 m c (Proc.devRef .tc b) = W7 m c (Proc.devRef .tc b)) :
    W10 m c (Proc.devRef .tc b) = m ((c : Thread nD τ).loc b) :=
  (W10_of_ne m c b hd.2.2).trans <| (StableHlo.after_of_writes_sub hostOps3 _ hostOps3_writes hd.1.2.2.2.2.2).trans <|
  h8.trans <| (StableHlo.after_of_writes_sub hostOps2 _ hostOps2_writes hd.1.2.2.2.2.1).trans <|
  (W6_of_ne m c b hd.2.1).trans <| (StableHlo.after_of_writes_sub hostOps1 _ hostOps1_writes hd.1.2.2.2.1).trans <|
  h4.trans <| (StableHlo.after_of_writes_sub hostOps0_2 _ hostOps0_2_writes hd.1.2.2.1).trans <|
  (StableHlo.after_of_writes_sub hostOps0_1 _ hostOps0_1_writes hd.1.2.1).trans <|
  StableHlo.after_of_writes_sub hostOps0 _ hostOps0_writes hd.1.1

def pdats : (p : Fin 4) → (c : Dev nD) → Dat τ (Elt F) Unit ℕ (UR sig nD τ) ℕ (Pipeline.pin (pcfgs (F := F)) adm p) c
  | ⟨0, _⟩ => fun c => dat0 (atTc (W3 m)) c
  | ⟨1, _⟩ => fun c => dat1 (atTc (W5 m)) c
  | ⟨2, _⟩ => fun c => dat2 (atTc (W7 m)) c
  | ⟨3, _⟩ => fun c => dat3 (atTc (W9 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Kernel call `p` as a segment from the boundary at `Wa` to the one at `Wb`, which differ only at the call's arrays. -/
def regOf (p : Fin 4) (lf : Pipeline.LaunchFacts (nD := nD) (τ := τ) cfgs p) (Wa Wb : Dev nD → Valuation τ sig (Elt F))
    (hbody : ∀ c, Pipeline.BodyObligationLoose (pdats m p c) defs₀ 𝒱₀ () Set.univ)
    (howed : ∀ c t, (pdats m p c).owed t = 0) (hrec : ∀ c t, (pdats m p c).recorded t = Set.univ)
    (hq : ∀ c w, (pdats m p c).q w = fullShare)
    (hA : ∀ c w, (pdats m p c).A w = atTc Wa c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (harr : ∀ c w, Wb c (Proc.devRef .tc (Pipeline.arrRef (cfgs p).spec w)) = (pdats m p c).arrAt w (cfgs p).N)
    (hne : ∀ c (b : Ref sig .tc), (∀ w, Pipeline.arrRef (cfgs p).spec w ≠ b) → Wb c (Proc.devRef .tc b) = Wa c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre := T Wa
  post := T Wb
  X c := iprop(∃ r, prngReg c r)
  Y c := iprop(∃ r, prngReg c r)
  Z c := Pipeline.unscopedRest (Ix := Unit) (Name := ℕ) (U := UR sig nD τ) (Lvl := ℕ) (cfgs p).spec c (atTc Wa c)
  hentry c := by
    have hsplit := Pipeline.arrays_of_unscopedBufs (p := p) (pcfgs (F := F)) adm (pdats m) lf.win lf.arr_whole c
      ((pdats m p c).share_full (hq c)) (atTc Wa c) (hA c)
    rw [Pipeline.unscopedBufs_held] at hsplit
    unfold Pipeline.Dat.owesAt Pipeline.owesWithin Pipeline.Dat.bound
    rw [Pipeline.ownSems0_none, howed, hrec]
    iintro ⟨⟨Hub, Hp, %W, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Wa c) (atTc Wb c) ((pdats m p c).arrAt · (cfgs p).N) (fun w => (harr c w).symm)
      fun b hb => hne c b fun w e => hb (Finset.mem_image.mpr ⟨w, Finset.mem_univ _, e⟩)
    rw [Pipeline.unscopedBufs_held] at hjoin
    unfold Pipeline.Dat.owesAt Pipeline.owesWithin
    rw [howed]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m 0 launch0 (W3 m) (W4 m) (fun c => (body_obligation0 _ c).loose) (fun _ _ => rfl) (fun _ _ => rfl)
  (fun _ _ => rfl) (fun _ _ => rfl) (fun _ => .rfl) (fun _ => .rfl) (W4_arr m) (W4_of_ne m)
def reg1 := regOf m 1 launch1 (W5 m) (W6 m) (fun c => (body_obligation1 _ c).loose) (fun _ _ => rfl) (fun _ _ => rfl)
  (fun _ _ => rfl) (fun _ _ => rfl) (hin1 _) (hout1 _) (W6_arr m) (W6_of_ne m)
def reg2 := regOf m 2 launch2 (W7 m) (W8 m) (fun c => (body_obligation2 _ c).loose) (fun _ _ => rfl) (fun _ _ => rfl)
  (fun _ _ => rfl) (fun _ _ => rfl) (fun _ => .rfl) (fun _ => .rfl) (W8_arr m) (W8_of_ne m)
def reg3 := regOf m 3 launch3 (W9 m) (W10 m) (fun c => (body_obligation3 _ c).loose) (fun _ _ => rfl) (fun _ _ => rfl)
  (fun _ _ => rfl) (fun _ _ => rfl) (hin3 _) (hout3 _) (W10_arr m) (W10_of_ne m)

/-- @main's ten items in order, each from its boundary's contents. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]
theorem main_run (c : Dev nD) : main (F := F) c = Pipeline.Seg.run (segs m) := (main_chain c).trans (by chain_rfl)

/-- The ten segments chain from the launch memory to the last boundary, whose contents the final state is read against. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- `main_arg3` is window 1 of regions 0 and 2, an input: its array there keeps its entry contents. -/
theorem run_result (ρ : Dev nD → PrngReg) : θ_run defs (onTc (τ := τ) (main (F := F))) ⟨m, fun _ => 0, ρ⟩ (fun r => ∀ c : Dev nD,
      r.2.mem ((c.tc : Thread nD τ).loc main_v29) = W10 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v29 (by decide)),
     (h c _ (mem_uc main_arg0 (by decide))).trans (W10_launch m c main_arg0 (by decide) (W4_of_ne m c _ (by decide)) (W8_of_ne m c _ (by decide))),
     (h c _ (mem_uc main_arg1 (by decide))).trans (W10_launch m c main_arg1 (by decide) (W4_of_ne m c _ (by decide)) (W8_of_ne m c _ (by decide))),
     (h c _ (mem_uc main_arg2 (by decide))).trans (W10_launch m c main_arg2 (by decide) (W4_of_ne m c _ (by decide)) (W8_of_ne m c _ (by decide))),
     (h c _ (mem_uc main_arg3 (by decide))).trans (W10_launch m c main_arg3 (by decide)
       ((W4_arr m c 1).trans (((dat0 (atTc (W3 m)) c).arrAt_in 1 rfl _).trans (A_eq0 (atTc (W3 m)) c 1)))
       ((W8_arr m c 1).trans (((dat2 (atTc (W7 m)) c).arrAt_in 1 rfl _).trans (A_eq2 (atTc (W7 m)) c 1))))⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Hand

end
-- ==== Proof.LibRealSums.lean ====
import Idealize.ShloMosaic.PureOps.Ideal
import Idealize.ShloMosaic.PureOps.Ideal.Laws

noncomputable section

namespace Cert.RealSums

open Idealize.ShloMosaic
open scoped BigOperators

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

theorem coe_max (a b : ℝ) : ((max a b : ℝ) : EReal) = max (a : EReal) (b : EReal) :=
  EReal.coe_strictMono.monotone.map_max

end Cert.RealSums

end
-- ==== Proof.Spec.lean ====
import Idealize.ShloMosaic.PureOps.Ideal
import Idealize.ShloMosaic.Lib.ValueIdx
import proofs.«408110_j25142738550817_3_alg».proof.Proof.LibRealSums

noncomputable section

namespace Cert.Spec

open Idealize.ShloMosaic
open scoped Classical

abbrev G4 : Type := Fin 2 → Fin 64 → Fin 64 → Fin 128 → EReal
abbrev Wt : Type := Fin 128 → Fin 128 → EReal
abbrev M4 : Type := Fin 2 → Fin 64 → Fin 64 → Fin 64 → Bool
abbrev A3 : Type := Fin 2 → Fin 64 → Fin 64 → Bool

abbrev Adm : Type := Fin 2 → Fin 64 → Fin 64 → Fin 64 → Prop

def beta : EReal := Ideal.ofBits .f32 0x3F666666#32

def half : EReal := Ideal.ofBits .f32 0x3F000000#32

def proj (g : G4) (W : Wt) : G4 := fun b i j l => ∑ k : Fin 128, g b i j k * W k l

def validP (P g : G4) (adm : Adm) (b : Fin 2) (i j m : Fin 64) : Prop :=
  adm b i j m ∧ ¬ ∀ k : Fin 128, P b i j k * g b j m k = 0

def ngP (P g : G4) (adm : Adm) : G4 := fun b i m k =>
  ∑ j : Fin 64, if validP P g adm b i j m then Ideal.logistic (P b i j k * g b j m k) else 0

def betaP (P g : G4) (adm : Adm) (b : Fin 2) (i m : Fin 64) : EReal :=
  if ∃ j : Fin 64, validP P g adm b i j m then beta else 1

def stepP (P g : G4) (adm : Adm) : G4 := fun b i m k =>
  ngP P g adm b i m k + betaP P g adm b i m * (g b i m k - ngP P g adm b i m k)

def admOf (msk : M4) : Adm := fun b i j m => msk b i j m = true ∧ ¬ (j = m ∨ i = j ∨ i = m)

def step (g : G4) (W : Wt) (msk : M4) : G4 := stepP (proj g W) g (admOf msk)

def g0 (graph : G4) (adj : A3) : G4 := fun b i j k => if adj b i j = true then graph b i j k else 0

def result (graph : G4) (adj : A3) (msk : M4) (W : Wt) : G4 := step (step (g0 graph adj) W msk) W msk

def toG4 (a : (⟨4, ![2, 64, 64, 128]⟩ : Shape).Idx → EReal) : G4 := fun b i j k => a (ValueIdx.ix4 b i j k)
def toWt (a : (⟨2, ![128, 128]⟩ : Shape).Idx → EReal) : Wt := fun k l => a (ValueIdx.ix2 k l)
def toA3 (a : (⟨3, ![2, 64, 64]⟩ : Shape).Idx → BitVec 1) : A3 := fun b i j => decide (a (ValueIdx.ix3 b i j) = 1#1)
def toM4 (a : (⟨4, ![2, 64, 64, 64]⟩ : Shape).Idx → BitVec 1) : M4 := fun b i j m => decide (a (ValueIdx.ix4 b i j m) = 1#1)

def ofG4 (g : G4) : (⟨4, ![2, 64, 64, 128]⟩ : Shape).Idx → EReal := fun x => g (x 0) (x 1) (x 2) (x 3)

theorem ofG4_ix4 (g : G4) (b : Fin 2) (i j : Fin 64) (k : Fin 128) : ofG4 g (ValueIdx.ix4 b i j k) = g b i j k := rfl
theorem toG4_ofG4 (g : G4) : toG4 (ofG4 g) = g := rfl

def IsReal (g : G4) : Prop := ∀ b i j k, ∃ r : ℝ, g b i j k = (r : EReal)
def IsRealW (W : Wt) : Prop := ∀ k l, ∃ r : ℝ, W k l = (r : EReal)

theorem g0_isReal {graph : G4} (adj : A3) (h : IsReal graph) : IsReal (g0 graph adj) := by
  intro b i j k
  unfold g0
  split
  · exact h b i j k
  · exact ⟨0, rfl⟩

theorem proj_isReal {g : G4} {W : Wt} (hg : IsReal g) (hW : IsRealW W) : IsReal (proj g W) := by
  intro b i j l
  unfold proj
  refine Cert.RealSums.sum_real _ _ fun k => ?_
  obtain ⟨x, hx⟩ := hg b i j k
  obtain ⟨y, hy⟩ := hW k l
  exact ⟨x * y, by rw [hx, hy, EReal.coe_mul]⟩

theorem beta_real : ∃ r : ℝ, beta = (r : EReal) := by
  unfold beta
  simp [Ideal.ofBits, Ideal.ieee]
  exact ⟨_, (EReal.coe_mul _ _).symm⟩

theorem stepP_isReal {P g : G4} (adm : Adm) (hP : IsReal P) (hg : IsReal g) : IsReal (stepP P g adm) := by
  have hn : IsReal (ngP P g adm) := by
    intro b i m k
    unfold ngP
    refine Cert.RealSums.sum_real _ _ fun j => ?_
    obtain ⟨x, hx⟩ := hP b i j k
    obtain ⟨y, hy⟩ := hg b j m k
    split
    · exact ⟨(1 + Real.exp (-(x * y)))⁻¹, by rw [hx, hy, ← EReal.coe_mul, Ideal.logistic_coe]⟩
    · exact ⟨0, rfl⟩
  intro b i m k
  obtain ⟨n, hn⟩ := hn b i m k
  obtain ⟨x, hx⟩ := hg b i m k
  have hb : ∃ t : ℝ, betaP P g adm b i m = (t : EReal) := by
    unfold betaP
    split
    · exact beta_real
    · exact ⟨1, rfl⟩
  obtain ⟨t, ht⟩ := hb
  exact ⟨n + t * (x - n), by unfold stepP; rw [hn, ht, hx, ← EReal.coe_sub, ← EReal.coe_mul, ← EReal.coe_add]⟩

theorem step_isReal {g : G4} {W : Wt} (msk : M4) (hg : IsReal g) (hW : IsRealW W) : IsReal (step g W msk) :=
  stepP_isReal _ (proj_isReal hg hW) hg

end Cert.Spec

end
-- ==== Proof.KernelIdealHostVal.lean ====
import proofs.«408110_j25142738550817_3_alg».proof.Proof.KernelIdealFold
import proofs.«408110_j25142738550817_3_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open scoped Classical

variable (m : (ℓ : Loc nD τ sig) → Buf (Elt Ideal) ℓ) (c : Dev nD)

abbrev A0 : S2x64x64x128.Idx → EReal := m (c, Proc.devRef .tc main_arg0)
abbrev A1 : S2x64x64.Idx → BitVec 1 := m (c, Proc.devRef .tc main_arg1)
abbrev A2 : S2x64x64x64.Idx → BitVec 1 := m (c, Proc.devRef .tc main_arg2)
abbrev A3w : S128x128.Idx → EReal := m (c, Proc.devRef .tc main_arg3)

theorem v2_term : (W3 m c (Proc.devRef .tc main_v2) : S2x64x64x128.Idx → EReal)
    = select (broadcastInDim S2x64x64x128 ![0, 1, 2, 3] bcast_S2x64x64x1_S2x64x64x128_0_1_2_3
        (broadcastInDim S2x64x64x1 ![0, 1, 2] bcast_S2x64x64_S2x64x64x1_0_1_2 (A1 m c)))
        (A0 m c)
        (broadcastInDim S2x64x64x128 ![] bcast_S_S2x64x64x128 (constant (F := Ideal) S_ .f32 0x00000000#32)) := by
  dsimp only [W3, W2, W1, W0]
  simp only [hostOps0, hostOps0_1, hostOps0_2]
  after_results
  rfl

theorem bcast_adj_apply (x : S2x64x64.Idx → BitVec 1) (b : Fin 2) (i j : Fin 64) (k : Fin 128) :
    broadcastInDim S2x64x64x128 ![0, 1, 2, 3] bcast_S2x64x64x1_S2x64x64x128_0_1_2_3
        (broadcastInDim S2x64x64x1 ![0, 1, 2] bcast_S2x64x64_S2x64x64x1_0_1_2 x) (ix4 b i j k) = x (ix3 b i j) :=
  (broadcastInDim_apply _ _ _ (ix4 b i j k) (ix4 b i j (0 : Fin 1)) fun a => by fin_cases a <;> rfl).trans
    (broadcastInDim_apply _ _ _ (ix4 b i j (0 : Fin 1)) (ix3 b i j) fun a => by fin_cases a <;> rfl)

theorem hv2 : (W3 m c (Proc.devRef .tc main_v2) : S2x64x64x128.Idx → EReal)
    = Spec.ofG4 (Spec.g0 (Spec.toG4 (A0 m c)) (Spec.toA3 (A1 m c))) := by
  rw [v2_term]
  funext x
  obtain ⟨b, i, j, k, rfl⟩ : ∃ (b : Fin 2) (i j : Fin 64) (k : Fin 128), x = ix4 b i j k := ⟨x 0, x 1, x 2, x 3, eq_ix4 x⟩
  rw [Spec.ofG4_ix4, select_apply, bcast_adj_apply, broadcastInDim_scalar_apply, constant_apply, Ideal.ofBits_zero_f32]
  unfold Spec.g0 Spec.toG4 Spec.toA3 Scalar.select
  simp only [decide_eq_true_eq]
  rfl

def eye : S64x64.Idx → BitVec 1 :=
  cmpi .eq (addi (iotaInDim S64x64 32 0) (broadcastInDim S64x64 ![] bcast_S_S64x64 (constantI S_ 32 0#32))) (iotaInDim S64x64 32 1)

def distinct3 : S64x64x64.Idx → BitVec 1 :=
  noti (ori (ori
    (broadcastInDim S64x64x64 ![0, 1, 2] bcast_S1x64x64_S64x64x64_0_1_2 (broadcastInDim S1x64x64 ![1, 2] bcast_S64x64_S1x64x64_1_2 eye))
    (broadcastInDim S64x64x64 ![0, 1, 2] bcast_S64x64x1_S64x64x64_0_1_2 (broadcastInDim S64x64x1 ![0, 1] bcast_S64x64_S64x64x1_0_1 eye)))
    (broadcastInDim S64x64x64 ![0, 1, 2] bcast_S64x1x64_S64x64x64_0_1_2 (broadcastInDim S64x1x64 ![0, 2] bcast_S64x64_S64x1x64_0_2 eye)))

theorem v21_term : (W3 m c (Proc.devRef .tc main_v21) : S2x64x64x64x1.Idx → EReal)
    = broadcastInDim S2x64x64x64x1 ![0, 1, 2, 3] bcast_S2x64x64x64_S2x64x64x64x1_0_1_2_3
        (uitofp (F := Ideal) .f32 (andi (A2 m c)
          (broadcastInDim S2x64x64x64 ![0, 1, 2, 3] bcast_S1x64x64x64_S2x64x64x64_0_1_2_3
            (broadcastInDim S1x64x64x64 ![1, 2, 3] bcast_S64x64x64_S1x64x64x64_1_2_3 distinct3)))) := by
  dsimp only [W3, W2, W1, W0]
  simp only [hostOps0, hostOps0_1, hostOps0_2]
  after_results
  rfl

theorem bit_or_iff : ∀ x y : BitVec 1, IntOp.ori x y = 1#1 ↔ (x = 1#1 ∨ y = 1#1) := by decide

theorem bit_and_iff : ∀ x y : BitVec 1, IntOp.andi x y = 1#1 ↔ (x = 1#1 ∧ y = 1#1) := by decide

theorem bit_not_iff : ∀ x : BitVec 1, ~~~x = 1#1 ↔ ¬ x = 1#1 := by decide

theorem uitofp_bit (x : BitVec 1) : FloatOps.uitofp (F := Ideal) .f32 x = if x = 1#1 then (1 : EReal) else 0 := by
  by_cases h : x = 1#1
  · rw [if_pos h, h]; show (((1#1 : BitVec 1).toNat : ℝ) : EReal) = 1; simp
  · rw [if_neg h, eq_zero_of_ne_one h]; show (((0#1 : BitVec 1).toNat : ℝ) : EReal) = 0; simp

theorem eye_apply (p q : Fin 64) : eye (ix2 p q) = 1#1 ↔ p = q := by
  have hp := p.isLt
  have hq := q.isLt
  show IntOp.cmpi .eq (IntOp.addi (BitVec.ofNat 32 p.val) 0#32) (BitVec.ofNat 32 q.val) = 1#1 ↔ p = q
  rw [StableHlo.Predicate.cmpi_eq_iff]
  unfold IntOp.addi
  constructor
  · intro h
    have h' := congrArg BitVec.toNat h
    rw [BitVec.add_zero, BitVec.toNat_ofNat, BitVec.toNat_ofNat] at h'
    exact Fin.ext (by omega)
  · rintro rfl; exact BitVec.add_zero _

variable {α : Type}

theorem spread12_apply (x : S64x64.Idx → α) (i j mm : Fin 64) :
    broadcastInDim S64x64x64 ![0, 1, 2] bcast_S1x64x64_S64x64x64_0_1_2 (broadcastInDim S1x64x64 ![1, 2] bcast_S64x64_S1x64x64_1_2 x) (ix3 i j mm)
      = x (ix2 j mm) :=
  (broadcastInDim_apply _ _ _ (ix3 i j mm) (ix3 (0 : Fin 1) j mm) fun a => by fin_cases a <;> rfl).trans
    (broadcastInDim_apply _ _ _ (ix3 (0 : Fin 1) j mm) (ix2 j mm) fun a => by fin_cases a <;> rfl)

theorem spread01_apply (x : S64x64.Idx → α) (i j mm : Fin 64) :
    broadcastInDim S64x64x64 ![0, 1, 2] bcast_S64x64x1_S64x64x64_0_1_2 (broadcastInDim S64x64x1 ![0, 1] bcast_S64x64_S64x64x1_0_1 x) (ix3 i j mm)
      = x (ix2 i j) :=
  (broadcastInDim_apply _ _ _ (ix3 i j mm) (ix3 i j (0 : Fin 1)) fun a => by fin_cases a <;> rfl).trans
    (broadcastInDim_apply _ _ _ (ix3 i j (0 : Fin 1)) (ix2 i j) fun a => by fin_cases a <;> rfl)

theorem spread02_apply (x : S64x64.Idx → α) (i j mm : Fin 64) :
    broadcastInDim S64x64x64 ![0, 1, 2] bcast_S64x1x64_S64x64x64_0_1_2 (broadcastInDim S64x1x64 ![0, 2] bcast_S64x64_S64x1x64_0_2 x) (ix3 i j mm)
      = x (ix2 i mm) :=
  (broadcastInDim_apply _ _ _ (ix3 i j mm) (ix3 i (0 : Fin 1) mm) fun a => by fin_cases a <;> rfl).trans
    (broadcastInDim_apply _ _ _ (ix3 i (0 : Fin 1) mm) (ix2 i mm) fun a => by fin_cases a <;> rfl)

theorem spreadB_apply (y : S64x64x64.Idx → α) (b : Fin 2) (i j mm : Fin 64) :
    broadcastInDim S2x64x64x64 ![0, 1, 2, 3] bcast_S1x64x64x64_S2x64x64x64_0_1_2_3
        (broadcastInDim S1x64x64x64 ![1, 2, 3] bcast_S64x64x64_S1x64x64x64_1_2_3 y) (ix4 b i j mm)
      = y (ix3 i j mm) :=
  (broadcastInDim_apply _ _ _ (ix4 b i j mm) (ix4 (0 : Fin 1) i j mm) fun a => by fin_cases a <;> rfl).trans
    (broadcastInDim_apply _ _ _ (ix4 (0 : Fin 1) i j mm) (ix3 i j mm) fun a => by fin_cases a <;> rfl)

theorem distinct3_apply (i j mm : Fin 64) : distinct3 (ix3 i j mm) = 1#1 ↔ ¬ (j = mm ∨ i = j ∨ i = mm) := by
  unfold distinct3
  show ~~~(IntOp.ori (IntOp.ori (broadcastInDim S64x64x64 ![0, 1, 2] bcast_S1x64x64_S64x64x64_0_1_2 (broadcastInDim S1x64x64 ![1, 2] bcast_S64x64_S1x64x64_1_2 eye) (ix3 i j mm))
      (broadcastInDim S64x64x64 ![0, 1, 2] bcast_S64x64x1_S64x64x64_0_1_2 (broadcastInDim S64x64x1 ![0, 1] bcast_S64x64_S64x64x1_0_1 eye) (ix3 i j mm)))
      (broadcastInDim S64x64x64 ![0, 1, 2] bcast_S64x1x64_S64x64x64_0_1_2 (broadcastInDim S64x1x64 ![0, 2] bcast_S64x64_S64x1x64_0_2 eye) (ix3 i j mm))) = 1#1 ↔ _
  rw [bit_not_iff, bit_or_iff, bit_or_iff, spread12_apply, spread01_apply, spread02_apply, eye_apply, eye_apply, eye_apply]
  tauto

theorem hv21 (b : Fin 2) (i j mm : Fin 64) :
    (W3 m c (Proc.devRef .tc main_v21) : S2x64x64x64x1.Idx → EReal) (ix5 b i j mm (0 : Fin 1))
      = if Spec.admOf (Spec.toM4 (A2 m c)) b i j mm then (1 : EReal) else 0 := by
  rw [v21_term]
  refine (broadcastInDim_apply _ _ _ (ix5 b i j mm (0 : Fin 1)) (ix4 b i j mm) ?_).trans ?_
  · intro a; fin_cases a <;> rfl
  show FloatOps.uitofp (F := Ideal) .f32 (IntOp.andi (A2 m c (ix4 b i j mm))
      (broadcastInDim S2x64x64x64 ![0, 1, 2, 3] bcast_S1x64x64x64_S2x64x64x64_0_1_2_3
        (broadcastInDim S1x64x64x64 ![1, 2, 3] bcast_S64x64x64_S1x64x64x64_1_2_3 distinct3) (ix4 b i j mm))) = _
  rw [uitofp_bit, spreadB_apply]
  have key : IntOp.andi (A2 m c (ix4 b i j mm)) (distinct3 (ix3 i j mm)) = 1#1 ↔ Spec.admOf (Spec.toM4 (A2 m c)) b i j mm := by
    rw [bit_and_iff, distinct3_apply]
    unfold Spec.admOf Spec.toM4
    simp only [decide_eq_true_eq]
  by_cases h : Spec.admOf (Spec.toM4 (A2 m c)) b i j mm
  · rw [if_pos h, if_pos (key.mpr h)]
  · rw [if_neg h, if_neg (mt key.mp h)]

theorem hv22 : (W3 m c (Proc.devRef .tc main_v22) : S8192x128.Idx → EReal)
    = shapeCast S8192x128 (W3 m c (Proc.devRef .tc main_v2) : S2x64x64x128.Idx → EReal) shapeCasts_S2x64x64x128_S8192x128 := by
  dsimp only [W3, W2, W1, W0]
  simp only [hostOps0, hostOps0_1, hostOps0_2]
  after_results
  rfl

theorem hv22_apply (b : Fin 2) (i j : Fin 64) (k : Fin 128) (hr : (b.val * 64 + i.val) * 64 + j.val < 8192) :
    (W3 m c (Proc.devRef .tc main_v22) : S8192x128.Idx → EReal) (ix2 (⟨(b.val * 64 + i.val) * 64 + j.val, hr⟩ : Fin 8192) k)
      = Spec.g0 (Spec.toG4 (A0 m c)) (Spec.toA3 (A1 m c)) b i j k := by
  rw [hv22, hv2]
  refine (shapeCast_apply _ _ (ix2 (⟨(b.val * 64 + i.val) * 64 + j.val, hr⟩ : Fin 8192) k) (ix4 b i j k) ?_).trans (Spec.ofG4_ix4 _ b i j k)
  rw [Shape.rowMajor_val_two, Shape.rowMajor_val_four]
  show ((b.val * 64 + i.val) * 64 + j.val) * 128 + k.val = ((b.val * 64 + i.val) * 64 + j.val) * 128 + k.val
  rfl

theorem hv_arg3 : W3 m c (Proc.devRef .tc main_arg3) = m (c, Proc.devRef .tc main_arg3) := by
  dsimp only [W3, W2, W1, W0]
  simp only [hostOps0, hostOps0_1, hostOps0_2]
  after_results

end Cert.KernelIdeal.Hand

end
-- ==== Proof.LibPlainDot.lean ====
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.KernelIdealMatVal0.lean ====
import proofs.«408110_j25142738550817_3_alg».proof.Proof.KernelIdealRegMat0
import proofs.«408110_j25142738550817_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

-- The payload at (p, q) is the sum over k of left (p, k) times right (k, q).
theorem pay0_apply (vl : Vec Ideal S1024x128 .f32) (vr : Vec Ideal S128x128 .f32) (p : Fin 1024) (q : Fin 128) :
    k0_pay1 (F := Ideal) vl vr (ix2 p q) = ∑ k : Fin 128, vl (ix2 p k) * vr (ix2 k q) := by
  unfold k0_pay1
  rw [shapeCast_self]
  exact PlainDot.matmul_zero_apply (φ₁ := .bf16) (φ₂ := .bf16) none vl vr p q

def matG0 (A : FVec Ideal S8192x128 .f32) (W : FVec Ideal S128x128 .f32) : FVec Ideal S8192x128 .f32 :=
  fun x => ∑ k : Fin 128, A (@ix2 8192 128 (x 0) k) * W (@ix2 128 128 k (x 1))

theorem matG0_apply (A : FVec Ideal S8192x128 .f32) (W : FVec Ideal S128x128 .f32) (r : Fin 8192) (q : Fin 128) :
    matG0 A W (ix2 r q) = ∑ k : Fin 128, A (ix2 r k) * W (ix2 k q) := rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Point t's stored tile is its rows of the product, whatever the two arrays are.
theorem tile0 (A : FVec Ideal S8192x128 .f32) (W : FVec Ideal S128x128 .f32) (t : Fin cfg0.N) :
    (cfg0.win 2).cut (grid0.coords t) (out0_2 (((cfg0.win 0).blk t).view.read (Elt Ideal) A) (((cfg0.win 1).blk t).view.read (Elt Ideal) W))
      = ((cfg0.win 2).blk t).view.read (Elt Ideal) (matG0 A W) := by
  unfold out0_2
  rw [View.canon_unit_zero hz0]
  simp only [View.ld_unit_zero (S := S1024x128) hz0, View.ld_unit_zero (S := S128x128) hz0]
  obtain ⟨ea, eb, ec, ed, ee, ef⟩ := idx_facts0 t
  have hN : cfg0.N = 8 := N_0
  have ht : t.val < cfg0.N := t.isLt
  refine funext fun (j : S1024x128.Idx) => ?_
  obtain ⟨p, q, rfl⟩ : ∃ (p : Fin 1024) (q : Fin 128), j = ix2 p q := ⟨j 0, j 1, eq_ix2 j⟩
  have hr : t.val * 1024 + p.val < 8192 := by have := p.isLt; omega
  show k0_pay1 (F := Ideal) _ _ (ix2 p q) = matG0 A W (((cfg0.win 2).blk t).view.emb (ix2 p q))
  refine (pay0_apply _ _ p q).trans ?_
  have hemb : ((cfg0.win 2).blk t).view.emb (ix2 p q) = ix2 (⟨t.val * 1024 + p.val, hr⟩ : Fin 8192) q := by
    funext a; apply Fin.ext
    match a with
    | ⟨0, _⟩ => show win0_2.index t (0 : Fin 2) * 1024 + 1 * p.val = t.val * 1024 + p.val; omega
    | ⟨1, _⟩ => show win0_2.index t (1 : Fin 2) * 128 + 1 * q.val = q.val; omega
  rw [hemb, matG0_apply]
  refine Finset.sum_congr rfl fun k _ => ?_
  have hl : ((cfg0.win 0).blk t).view.emb (ix2 p k) = ix2 (⟨t.val * 1024 + p.val, hr⟩ : Fin 8192) k := by
    funext a; apply Fin.ext
    match a with
    | ⟨0, _⟩ => show win0_0.index t (0 : Fin 2) * 1024 + 1 * p.val = t.val * 1024 + p.val; omega
    | ⟨1, _⟩ => show win0_0.index t (1 : Fin 2) * 128 + 1 * k.val = k.val; omega
  have hw : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  exact congrArg₂ (fun (a b : Ideal .f32) => a * b) (congrArg A hl) (congrArg W hw)

theorem flushed0_eq (c : Dev nD) (t : Fin cfg0.N) :
    (dat0 (F := Ideal) V c).flushed 2 t = ((cfg0.win 2).blk t).view.read (Elt Ideal) (matG0 (V c (Pipeline.arrRef spec0 0)) (V c (Pipeline.arrRef spec0 1))) := by
  show (cfg0.win 2).cut (grid0.coords t) ((dat0 V c).after 2 t) = _
  rw [after0_2]
  exact tile0 _ _ t

theorem mem_blk0 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  refine (Finset.ext_iff.mp (View.set_slice_whole (Pipeline.arrRef spec0 2) (win0_2.rect t)) i).trans ?_
  rw [Rect.mem_set_unit]
  exact Iff.rfl

theorem cover0 (i : S8192x128.Idx) : ∃ t : Fin cfg0.N, (cfg0.win 2).flush t = true ∧ i ∈ ((cfg0.win 2).blk t).view.set := by
  have hir : (i 0).val < 8192 := (i 0).isLt
  have hic : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨ea, eb, ec, ed, ee, ef⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

-- The eight row tiles cover the output, and each holds its rows of the product.
theorem mat0_value (c : Dev nD) :
    (dat0 (F := Ideal) V c).arrAt 2 cfg0.N = matG0 (V c (Pipeline.arrRef spec0 0)) (V c (Pipeline.arrRef spec0 1)) :=
  (dat0 V c).arrAt_eq_of_cover 2 _ (fun t _ => flushed0_eq V c t) cover0

end Cert.KernelIdeal.Hand

end
-- ==== Proof.KernelIdealMatVal2.lean ====
import proofs.«408110_j25142738550817_3_alg».proof.Proof.KernelIdealRegMat2
import proofs.«408110_j25142738550817_3_alg».proof.Proof.KernelIdealMatVal0

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

-- Region 2 runs region 0's body over windows with region 0's index maps: the same tile, read at region 2's arrays.
theorem flushed2_eq (c : Dev nD) (t : Fin cfg2.N) :
    (dat2 (F := Ideal) V c).flushed 2 t = ((cfg2.win 2).blk t).view.read (Elt Ideal) (matG0 (V c (Pipeline.arrRef spec2 0)) (V c (Pipeline.arrRef spec2 1))) := by
  show (cfg2.win 2).cut (grid2.coords t) ((dat2 V c).after 2 t) = _
  rw [after2_2]
  exact tile0 (V c (Pipeline.arrRef spec2 0)) (V c (Pipeline.arrRef spec2 1)) t

theorem mat2_value (c : Dev nD) :
    (dat2 (F := Ideal) V c).arrAt 2 cfg2.N = matG0 (V c (Pipeline.arrRef spec2 0)) (V c (Pipeline.arrRef spec2 1)) :=
  (dat2 V c).arrAt_eq_of_cover 2 _ (fun t _ => flushed2_eq V c t) cover0

end Cert.KernelIdeal.Hand

end
-- ==== Proof.KernelIdealExpPay1.lean ====
import proofs.«408110_j25142738550817_3_alg».proof.Proof.KernelIdealRegExp1
import proofs.«408110_j25142738550817_3_alg».proof.Proof.Spec
import Idealize.ShloMosaic.PureOps.Ideal.Laws
import Idealize.ShloMosaic.Lib.ValueIdx
import Idealize.ShloMosaic.Lib.IdealHost
import Idealize.ShloMosaic.Lib.WordArith
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped Classical

def jrow1 (i : grid1.Coords) (jj : Fin 8) : Fin 64 :=
  ⟨8 * (i 2).val + jj.val, by have h : (i 2).val < 8 := (i 2).isLt; omega⟩
def irow1 (i : grid1.Coords) (ii : Fin 16) : Fin 64 :=
  ⟨16 * (i 1).val + ii.val, by have h : (i 1).val < 4 := (i 1).isLt; omega⟩

-- A path (ii, jj, mm) of the tile counts when its mask entry exceeds 1/2 and its products over k are not all zero.
def tileValid1 (i : grid1.Coords) (x0 : Vec Ideal S1x16x8x128 .f32) (x1 : Vec Ideal S1x64x64x128 .f32) (x2 : Vec Ideal S1x16x8x64x1 .f32)
    (ii : Fin 16) (jj : Fin 8) (mm : Fin 64) : Prop :=
  Spec.half < x2 (ix5 (0 : Fin 1) ii jj mm (0 : Fin 1)) ∧ ¬ ∀ kk : Fin 128, x0 (ix4 (0 : Fin 1) ii jj kk) * x1 (ix4 (0 : Fin 1) (jrow1 i jj) mm kk) = 0

variable (i : grid1.Coords) (h : k1_cond2 i = 1#1) (x0 : Vec Ideal S1x16x8x128 .f32) (x1 : Vec Ideal S1x64x64x128 .f32) (x2 : Vec Ideal S1x16x8x64x1 .f32)

theorem off2_1 (n : Fin 4) : (Scalar.indexCast (Scalar.muli (BitVec.ofNat 32 n.val) 16#32)).toNat = 16 * n.val := by
  revert n; decide

theorem k1_off2_1 : (k1_off2 i) 1 = 16 * (i 1).val := off2_1 (i 1)

theorem ld_rI1 (ii : Fin 16) (mm : Fin 64) (kk : Fin 128) :
    View.ld x1 (rI1 i h) (ix4 (0 : Fin 1) ii mm kk) = x1 (ix4 (0 : Fin 1) (irow1 i ii) mm kk) := by
  show x1 ((rI1 i h).idx (ix4 (0 : Fin 1) ii mm kk)) = _
  refine congrArg x1 (funext fun a => Fin.ext ?_)
  match a with
  | ⟨0, _⟩ => rfl
  | ⟨1, _⟩ => show (k1_off2 i) 1 + 1 * ii.val = 16 * (i 1).val + ii.val; rw [k1_off2_1]; omega
  | ⟨2, _⟩ => show 0 + 1 * mm.val = mm.val; omega
  | ⟨3, _⟩ => show 0 + 1 * kk.val = kk.val; omega

theorem off1_1 (n : Fin 8) : (Scalar.indexCast (Scalar.muli (BitVec.ofNat 32 n.val) 8#32)).toNat = 8 * n.val := by
  revert n; decide

theorem k1_off1_1 : (k1_off1 i) 1 = 8 * (i 2).val := off1_1 (i 2)

theorem ld_rJ1 (jj : Fin 8) (mm : Fin 64) (kk : Fin 128) :
    View.ld x1 (rJ1 i) (ix4 (0 : Fin 1) jj mm kk) = x1 (ix4 (0 : Fin 1) (jrow1 i jj) mm kk) := by
  show x1 ((rJ1 i).idx (ix4 (0 : Fin 1) jj mm kk)) = _
  refine congrArg x1 (funext fun a => Fin.ext ?_)
  match a with
  | ⟨0, _⟩ => rfl
  | ⟨1, _⟩ => show (k1_off1 i) 1 + 1 * jj.val = 8 * (i 2).val + jj.val; rw [k1_off1_1]; omega
  | ⟨2, _⟩ => show 0 + 1 * mm.val = mm.val; omega
  | ⟨3, _⟩ => show 0 + 1 * kk.val = kk.val; omega

theorem ld_rG1 : View.ld x0 rG1 = x0 :=
  View.ld_unit_zero (S := S1x16x8x128) (funext fun a => match a with | ⟨0, _⟩ => rfl | ⟨1, _⟩ => rfl | ⟨2, _⟩ => rfl | ⟨3, _⟩ => rfl) _ x0

theorem ld_rM1 : View.ld x2 rM1 = x2 :=
  View.ld_unit_zero (S := S1x16x8x64x1) (funext fun a => match a with | ⟨0, _⟩ => rfl | ⟨1, _⟩ => rfl | ⟨2, _⟩ => rfl | ⟨3, _⟩ => rfl | ⟨4, _⟩ => rfl) _ x2

theorem pay6_apply (v7 : Vec Ideal S1x16x8x128 .f32) (v10 : Vec Ideal S1x8x64x128 .f32) (ii : Fin 16) (jj : Fin 8) (mm : Fin 64) (kk : Fin 128) :
    k1_pay6 (F := Ideal) v7 v10 (ix4 ii jj mm kk) = v7 (ix4 (0 : Fin 1) ii jj kk) * v10 (ix4 (0 : Fin 1) jj mm kk) := by
  unfold k1_pay6
  show broadcastTo S16x8x64x128 (shapeCast S16x8x1x128 (shapeCast S16x8x128 v7 shapeCasts_S1x16x8x128_S16x8x128) shapeCasts_S16x8x128_S16x8x1x128) broadcasts_S16x8x1x128_S16x8x64x128 (ix4 ii jj mm kk)
      * broadcastTo S16x8x64x128 (shapeCast S1x8x64x128 (shapeCast S8x64x128 v10 shapeCasts_S1x8x64x128_S8x64x128) shapeCasts_S8x64x128_S1x8x64x128) broadcasts_S1x8x64x128_S16x8x64x128 (ix4 ii jj mm kk) = _
  rw [shapeCast_shapeCast v10]
  have e1 : broadcastTo S16x8x64x128 (shapeCast S16x8x1x128 (shapeCast S16x8x128 v7 shapeCasts_S1x16x8x128_S16x8x128) shapeCasts_S16x8x128_S16x8x1x128) broadcasts_S16x8x1x128_S16x8x64x128 (ix4 ii jj mm kk)
      = v7 (ix4 (0 : Fin 1) ii jj kk) := by
    refine (broadcastTo_apply _ broadcasts_S16x8x1x128_S16x8x64x128 (ix4 ii jj mm kk) (ix4 ii jj (0 : Fin 1) kk) fun a => ?_).trans ?_
    · match a with
      | ⟨0, _⟩ => rfl
      | ⟨1, _⟩ => rfl
      | ⟨2, _⟩ => rfl
      | ⟨3, _⟩ => rfl
    · refine (shapeCast_apply _ shapeCasts_S16x8x128_S16x8x1x128 (ix4 ii jj (0 : Fin 1) kk) (ix3 ii jj kk) ?_).trans ?_
      · rw [Shape.rowMajor_val_four, Shape.rowMajor_val_three]
        show (ii.val * 8 + jj.val) * 128 + kk.val = ((ii.val * 8 + jj.val) * 1 + 0) * 128 + kk.val
        omega
      · exact shapeCast_1abc_abc_apply _ _ ii jj kk
  have e2 : broadcastTo S16x8x64x128 v10 broadcasts_S1x8x64x128_S16x8x64x128 (ix4 ii jj mm kk) = v10 (ix4 (0 : Fin 1) jj mm kk) := by
    refine broadcastTo_apply _ broadcasts_S1x8x64x128_S16x8x64x128 (ix4 ii jj mm kk) (ix4 (0 : Fin 1) jj mm kk) fun a => ?_
    match a with
    | ⟨0, _⟩ => rfl
    | ⟨1, _⟩ => rfl
    | ⟨2, _⟩ => rfl
    | ⟨3, _⟩ => rfl
  rw [e1, e2]

theorem ofBits_pinf_f32 : Ideal.ofBits .f32 0x7F800000#32 = ⊤ := by simp [Ideal.ofBits, Ideal.ieee]
theorem ofBits_ninf_f32 : Ideal.ofBits .f32 0xFF800000#32 = ⊥ := by simp [Ideal.ofBits, Ideal.ieee]

theorem min3_apply (src : FVec Ideal S16x8x64x128 .f32) (h : S16x8x64x128.Reduces [3] S16x8x64) (hφ : FKind.Formats .f32)
    (hacc : (0x7F800000#32 : BitVec 32) = FKind.minimumf.neutral .f32 hφ) (ii : Fin 16) (jj : Fin 8) (mm : Fin 64) :
    multiReduction .minimumf [3] S16x8x64 src 0x7F800000#32 h hφ hacc (ix3 ii jj mm)
      = (Finset.univ : Finset (Fin 128)).fold min (⊤ : EReal) (fun kk => src (ix4 ii jj mm kk)) := by
  rw [multiReduction_minimumf_eq_fold]
  refine (h.fold_filter_drop_single _ _ src (ix3 ii jj mm)).trans ?_
  show (Finset.univ : Finset (Fin 128)).fold min (Ideal.ofBits .f32 0x7F800000#32) (fun kk => src (h.lift (ix3 ii jj mm) kk)) = _
  rw [ofBits_pinf_f32]
  exact Finset.fold_congr fun kk _ => congrArg src (funext fun a => Fin.ext (match a with | ⟨0, _⟩ => rfl | ⟨1, _⟩ => rfl | ⟨2, _⟩ => rfl | ⟨3, _⟩ => rfl))

theorem max1_apply (src : FVec Ideal S16x8x64x1 .f32) (h : S16x8x64x1.Reduces [1] S16x64x1) (hφ : FKind.Formats .f32)
    (hacc : (0xFF800000#32 : BitVec 32) = FKind.maximumf.neutral .f32 hφ) (ii : Fin 16) (mm : Fin 64) :
    multiReduction .maximumf [1] S16x64x1 src 0xFF800000#32 h hφ hacc (ix3 ii mm (0 : Fin 1))
      = (Finset.univ : Finset (Fin 8)).fold max (⊥ : EReal) (fun jj => src (ix4 ii jj mm (0 : Fin 1))) := by
  refine (Ideal.multiReduction_maximumf_single src _ h hφ hacc (ix3 ii mm (0 : Fin 1))).trans ?_
  show (Finset.univ : Finset (Fin 8)).fold max (Ideal.ofBits .f32 0xFF800000#32) (fun jj => src (h.lift (ix3 ii mm (0 : Fin 1)) jj)) = _
  rw [ofBits_ninf_f32]
  exact Finset.fold_congr fun jj _ => congrArg src (funext fun a => Fin.ext (match a with | ⟨0, _⟩ => rfl | ⟨1, _⟩ => rfl | ⟨2, _⟩ => rfl | ⟨3, _⟩ => rfl))

theorem add1_apply (src : FVec Ideal S16x8x64x128 .f32) (h : S16x8x64x128.Reduces [1] S16x64x128) (hφ : FKind.Formats .f32)
    (hacc : (0x00000000#32 : BitVec 32) = FKind.add.neutral .f32 hφ) (ii : Fin 16) (mm : Fin 64) (kk : Fin 128) :
    multiReduction .add [1] S16x64x128 src 0x00000000#32 h hφ hacc (ix3 ii mm kk)
      = ∑ jj : Fin 8, src (ix4 ii jj mm kk) := by
  refine (Ideal.multiReduction_add_single src _ h hφ hacc (ix3 ii mm kk)).trans ?_
  show ∑ jj : Fin 8, src (h.lift (ix3 ii mm kk) jj) = _
  refine Finset.sum_congr rfl fun jj _ => congrArg src (funext fun a => Fin.ext ?_)
  match a with
  | ⟨0, _⟩ => rfl
  | ⟨1, _⟩ => rfl
  | ⟨2, _⟩ => rfl
  | ⟨3, _⟩ => rfl

theorem zero_lt_fold_min {n : Nat} (f : Fin n → EReal) :
    0 < (Finset.univ : Finset (Fin n)).fold min (⊤ : EReal) f ↔ ∀ k, 0 < f k := by
  rw [Finset.lt_fold_min]
  exact ⟨fun h k => h.2 k (Finset.mem_univ k), fun h => ⟨EReal.zero_lt_top, fun k _ => h k⟩⟩

theorem zero_lt_fold_max {n : Nat} (f : Fin n → EReal) :
    0 < (Finset.univ : Finset (Fin n)).fold max (⊥ : EReal) f ↔ ∃ k, 0 < f k := by
  rw [Finset.lt_fold_max]
  exact ⟨fun h => h.elim (fun h0 => absurd h0 (not_lt_bot)) (fun ⟨k, _, hk⟩ => ⟨k, hk⟩), fun ⟨k, hk⟩ => Or.inr ⟨k, Finset.mem_univ k, hk⟩⟩

theorem cmpf_ogt_iff (x y : EReal) : FloatOps.cmpf (F := Ideal) (φ := .f32) .ogt x y = 1#1 ↔ y < x :=
  (WordArith.ofBool_eq_one_iff _).trans decide_eq_true_iff

theorem cmpf_oeq_iff (x y : EReal) : FloatOps.cmpf (F := Ideal) (φ := .f32) .oeq x y = 1#1 ↔ x = y :=
  (WordArith.ofBool_eq_one_iff _).trans decide_eq_true_iff

theorem andxor_iff : ∀ a b : BitVec 1, IntOp.andi a (IntOp.xori b 1#1) = 1#1 ↔ (a = 1#1 ∧ ¬ b = 1#1) := by decide

theorem zero_lt_select01 (b : BitVec 1) :
    0 < Scalar.select b (Ideal.ofBits .f32 0x3F800000#32) (Ideal.ofBits .f32 0x00000000#32) ↔ b = 1#1 := by
  by_cases h : b = 1#1
  · rw [h, select_one, Ideal.ofBits_one_f32]; exact ⟨fun _ => rfl, fun _ => zero_lt_one⟩
  · rw [eq_zero_of_ne_one h, select_zero, Ideal.ofBits_zero_f32]; exact ⟨fun h0 => absurd h0 (lt_irrefl _), fun h0 => absurd h0 (by decide)⟩

theorem cast_mask_apply (v17 : Vec Ideal S1x16x8x64x1 .f32) (ii : Fin 16) (jj : Fin 8) (mm : Fin 64) :
    shapeCast S16x8x64x1 v17 shapeCasts_S1x16x8x64x1_S16x8x64x1 (ix4 ii jj mm (0 : Fin 1)) = v17 (ix5 (0 : Fin 1) ii jj mm (0 : Fin 1)) := by
  refine shapeCast_apply v17 _ _ _ ?_
  rw [Shape.rowMajor_val_five, Shape.rowMajor_val_four]
  show ((((0 * 16 + ii.val) * 8 + jj.val) * 64 + mm.val) * 1 + 0) = ((ii.val * 8 + jj.val) * 64 + mm.val) * 1 + 0
  omega

theorem cast_addlast_apply {α : Type} (v : S16x8x64.Idx → α) (ii : Fin 16) (jj : Fin 8) (mm : Fin 64) :
    shapeCast S16x8x64x1 v shapeCasts_S16x8x64_S16x8x64x1 (ix4 ii jj mm (0 : Fin 1)) = v (ix3 ii jj mm) := by
  refine shapeCast_apply v _ _ _ ?_
  rw [Shape.rowMajor_val_three, Shape.rowMajor_val_four]
  show (ii.val * 8 + jj.val) * 64 + mm.val = ((ii.val * 8 + jj.val) * 64 + mm.val) * 1 + 0
  omega

theorem select_cmp_ogt {α : Type} (x y : EReal) (a b : α) :
    Scalar.select (FloatOps.cmpf (F := Ideal) (φ := .f32) .ogt x y) a b = if y < x then a else b :=
  if_congr (cmpf_ogt_iff x y) rfl rfl

theorem allpos_iff (src : FVec Ideal S16x8x64x128 .f32) (h : S16x8x64x128.Reduces [3] S16x8x64) (hφ : FKind.Formats .f32)
    (hacc : (0x7F800000#32 : BitVec 32) = FKind.minimumf.neutral .f32 hφ) (ii : Fin 16) (jj : Fin 8) (mm : Fin 64) :
    cmpf .ogt (multiReduction .minimumf [3] S16x8x64 src 0x7F800000#32 h hφ hacc) (broadcast S16x8x64 (Ideal.ofBits .f32 0x00000000#32)) (ix3 ii jj mm) = 1#1
      ↔ ∀ kk : Fin 128, 0 < src (ix4 ii jj mm kk) := by
  rw [cmpf_apply, broadcast_apply, cmpf_ogt_iff, Ideal.ofBits_zero_f32, min3_apply]
  exact zero_lt_fold_min _

theorem pay7_iff (v7 : Vec Ideal S1x16x8x128 .f32) (v10 : Vec Ideal S1x8x64x128 .f32) (v17 : Vec Ideal S1x16x8x64x1 .f32)
    (ii : Fin 16) (jj : Fin 8) (mm : Fin 64) :
    k1_pay7 (F := Ideal) v7 v10 v17 (ix4 ii jj mm (0 : Fin 1)) = 1#1
      ↔ (Ideal.ofBits .f32 0x3F000000#32 < v17 (ix5 (0 : Fin 1) ii jj mm (0 : Fin 1))
            ∧ ¬ ∀ kk : Fin 128, v7 (ix4 (0 : Fin 1) ii jj kk) * v10 (ix4 (0 : Fin 1) jj mm kk) = 0) := by
  unfold k1_pay7
  show IntOp.andi (FloatOps.cmpf .ogt (shapeCast S16x8x64x1 v17 shapeCasts_S1x16x8x64x1_S16x8x64x1 (ix4 ii jj mm (0 : Fin 1))) (Ideal.ofBits .f32 0x3F000000#32))
        (IntOp.xori (shapeCast S16x8x64x1 (cmpf .ogt (multiReduction .minimumf [3] S16x8x64 _ 0x7F800000#32 reduces_S16x8x64x128_S16x8x64 (.inl rfl) rfl) (broadcast S16x8x64 (Ideal.ofBits .f32 0x00000000#32))) shapeCasts_S16x8x64_S16x8x64x1 (ix4 ii jj mm (0 : Fin 1))) 1#1) = 1#1 ↔ _
  rw [cast_mask_apply, cast_addlast_apply, andxor_iff, cmpf_ogt_iff]
  refine and_congr Iff.rfl (not_congr ((allpos_iff _ _ _ _ ii jj mm).trans (forall_congr' fun kk => ?_)))
  rw [select_apply, cmpf_apply, broadcast_apply, broadcast_apply]
  simp only [Ideal.ofBits_def]
  rw [zero_lt_select01, cmpf_oeq_iff, Ideal.ofBits_zero_f32, pay6_apply]

theorem pay7_tile (ii : Fin 16) (jj : Fin 8) (mm : Fin 64) :
    k1_pay7 (F := Ideal) (View.ld x0 rG1) (View.ld x1 (rJ1 i)) (View.ld x2 rM1) (ix4 ii jj mm (0 : Fin 1)) = 1#1
      ↔ tileValid1 i x0 x1 x2 ii jj mm := by
  rw [ld_rG1, ld_rM1, pay7_iff]
  unfold tileValid1
  refine and_congr Iff.rfl (not_congr (forall_congr' fun kk => ?_))
  rw [ld_rJ1]

theorem sitofp_bit (b : BitVec 1) : FloatOps.sitofp (F := Ideal) .f32 (b.setWidth 32) = if b = 1#1 then (1 : EReal) else 0 := by
  by_cases h : b = 1#1
  · rw [if_pos h, h]
    show ((((1#1 : BitVec 1).setWidth 32).toInt : ℝ) : EReal) = 1
    rw [show ((1#1 : BitVec 1).setWidth 32).toInt = 1 by decide]; simp
  · rw [if_neg h, eq_zero_of_ne_one h]
    show ((((0#1 : BitVec 1).setWidth 32).toInt : ℝ) : EReal) = 0
    rw [show ((0#1 : BitVec 1).setWidth 32).toInt = 0 by decide]; simp

theorem term1_apply (ii : Fin 16) (jj : Fin 8) (mm : Fin 64) (kk : Fin 128) :
    mulf (logistic (k1_pay6 (F := Ideal) (View.ld x0 rG1) (View.ld x1 (rJ1 i))))
        (broadcastTo S16x8x64x128 (sitofp (F := Ideal) .f32 (k1_pay8 (F := Ideal) (View.ld x0 rG1) (View.ld x1 (rJ1 i)) (View.ld x2 rM1)))
          broadcasts_S16x8x64x1_S16x8x64x128) (ix4 ii jj mm kk)
      = if tileValid1 i x0 x1 x2 ii jj mm
          then Ideal.logistic (x0 (ix4 (0 : Fin 1) ii jj kk) * x1 (ix4 (0 : Fin 1) (jrow1 i jj) mm kk)) else 0 := by
  have eb : broadcastTo S16x8x64x128 (sitofp (F := Ideal) .f32 (k1_pay8 (F := Ideal) (View.ld x0 rG1) (View.ld x1 (rJ1 i)) (View.ld x2 rM1)))
          broadcasts_S16x8x64x1_S16x8x64x128 (ix4 ii jj mm kk)
      = if tileValid1 i x0 x1 x2 ii jj mm then (1 : EReal) else 0 := by
    refine (broadcastTo_apply _ broadcasts_S16x8x64x1_S16x8x64x128 (ix4 ii jj mm kk) (ix4 ii jj mm (0 : Fin 1)) fun a => ?_).trans ?_
    · match a with
      | ⟨0, _⟩ => rfl
      | ⟨1, _⟩ => rfl
      | ⟨2, _⟩ => rfl
      | ⟨3, _⟩ => rfl
    · rw [sitofp_apply]
      show FloatOps.sitofp (F := Ideal) .f32 ((k1_pay7 (F := Ideal) (View.ld x0 rG1) (View.ld x1 (rJ1 i)) (View.ld x2 rM1) (ix4 ii jj mm (0 : Fin 1))).setWidth 32) = _
      rw [sitofp_bit]
      by_cases hv : tileValid1 i x0 x1 x2 ii jj mm
      · rw [if_pos hv, if_pos ((pay7_tile i x0 x1 x2 ii jj mm).mpr hv)]
      · rw [if_neg hv, if_neg (fun h => hv ((pay7_tile i x0 x1 x2 ii jj mm).mp h))]
  refine (mulf_apply _ _ _).trans ?_
  rw [eb]
  show Ideal.logistic (k1_pay6 (F := Ideal) (View.ld x0 rG1) (View.ld x1 (rJ1 i)) (ix4 ii jj mm kk)) * _ = _
  rw [pay6_apply, ld_rG1, ld_rJ1]
  by_cases hv : tileValid1 i x0 x1 x2 ii jj mm
  · rw [if_pos hv, if_pos hv, mul_one]
  · rw [if_neg hv, if_neg hv, mul_zero]

theorem flags_pos (v31 : IVec S16x8x64x1 1) (j : S16x8x64x1.Idx) :
    0 < select v31 (broadcast S16x8x64x1 (Ideal.ofBits .f32 0x3F800000#32)) (broadcast S16x8x64x1 (Ideal.ofBits .f32 0x00000000#32)) j
      ↔ v31 j = 1#1 := by
  rw [select_apply, broadcast_apply, broadcast_apply]
  exact zero_lt_select01 _

theorem anypos_iff (src : FVec Ideal S16x8x64x1 .f32) (h : S16x8x64x1.Reduces [1] S16x64x1) (hφ : FKind.Formats .f32)
    (hacc : (0xFF800000#32 : BitVec 32) = FKind.maximumf.neutral .f32 hφ) (ii : Fin 16) (mm : Fin 64) :
    cmpf .ogt (multiReduction .maximumf [1] S16x64x1 src 0xFF800000#32 h hφ hacc) (broadcast S16x64x1 (Ideal.ofBits .f32 0x00000000#32)) (ix3 ii mm (0 : Fin 1)) = 1#1
      ↔ ∃ jj : Fin 8, 0 < src (ix4 ii jj mm (0 : Fin 1)) := by
  rw [cmpf_apply, broadcast_apply, cmpf_ogt_iff, Ideal.ofBits_zero_f32, max1_apply]
  exact zero_lt_fold_max _

-- One j-tile adds the logistics of its valid paths to the running sum.
theorem sumStep1_apply (acc : Vec Ideal S16x64x128 .f32) (ii : Fin 16) (mm : Fin 64) (kk : Fin 128) :
    sumStep1 (F := Ideal) i x0 x1 x2 acc (ix3 ii mm kk)
      = acc (ix3 ii mm kk) + ∑ jj : Fin 8, (if tileValid1 i x0 x1 x2 ii jj mm
          then Ideal.logistic (x0 (ix4 (0 : Fin 1) ii jj kk) * x1 (ix4 (0 : Fin 1) (jrow1 i jj) mm kk)) else 0) := by
  unfold sumStep1 k1_pay1
  show (shapeCast S16x64x128 (addf (F := Ideal) (φ := .f32) acc (multiReduction .add [1] S16x64x128 _ 0x00000000#32 reduces_S16x8x64x128_S16x64x128 (.inl rfl) rfl)) shapeCasts_S16x64x128_S16x64x128) (ix3 ii mm kk) = _
  refine (congrFun (shapeCast_self _ _) _).trans ?_
  refine (addf_apply _ _ _).trans ?_
  congr 1
  exact (add1_apply _ _ _ _ ii mm kk).trans (Finset.sum_congr rfl fun jj _ => term1_apply i x0 x1 x2 ii jj mm kk)

-- One j-tile raises the running flag to 1 when some path of the tile is valid.
theorem seenStep1_apply (acc : Vec Ideal S16x64x1 .f32) (ii : Fin 16) (mm : Fin 64) :
    seenStep1 (F := Ideal) i x0 x1 x2 acc (ix3 ii mm (0 : Fin 1))
      = max (acc (ix3 ii mm (0 : Fin 1))) (if ∃ jj : Fin 8, tileValid1 i x0 x1 x2 ii jj mm then (1 : EReal) else 0) := by
  unfold seenStep1 k1_pay2
  show (shapeCast S16x64x1 (maximumf (F := Ideal) (φ := .f32) acc (sitofp .f32 (extui 32 (cmpf .ogt
      (multiReduction .maximumf [1] S16x64x1
        (select (k1_pay7 (F := Ideal) (View.ld x0 rG1) (View.ld x1 (rJ1 i)) (View.ld x2 rM1))
          (broadcast S16x8x64x1 (Ideal.ofBits .f32 0x3F800000#32)) (broadcast S16x8x64x1 (Ideal.ofBits .f32 0x00000000#32)))
        0xFF800000#32 reduces_S16x8x64x1_S16x64x1 (.inl rfl) rfl)
      (broadcast S16x64x1 (Ideal.ofBits .f32 0x00000000#32))) natLt_1_32))) shapeCasts_S16x64x1_S16x64x1) (ix3 ii mm (0 : Fin 1)) = _
  refine (congrFun (shapeCast_self _ _) _).trans ?_
  refine (maximumf_apply _ _ _).trans ?_
  congr 1
  rw [sitofp_apply, extui_apply, sitofp_bit]
  by_cases hv : ∃ jj : Fin 8, tileValid1 i x0 x1 x2 ii jj mm
  · rw [if_pos hv]
    refine if_pos ((anypos_iff _ _ _ _ ii mm).mpr ?_)
    obtain ⟨jj, hj⟩ := hv
    exact ⟨jj, (flags_pos _ _).mpr ((pay7_tile i x0 x1 x2 ii jj mm).mpr hj)⟩
  · rw [if_neg hv]
    refine if_neg fun h => ?_
    obtain ⟨jj, hj⟩ := (anypos_iff _ _ _ _ ii mm).mp h
    exact hv ⟨jj, (pay7_tile i x0 x1 x2 ii jj mm).mp ((flags_pos _ _).mp hj)⟩

-- The stored tile is sum + β · (old − sum), with β = 0.9 where the flag exceeds 1/2 and β = 1 elsewhere.
theorem fin1_apply (seen : Vec Ideal S16x64x1 .f32)
    (sum : Vec Ideal S16x64x128 .f32) (ii : Fin 16) (mm : Fin 64) (kk : Fin 128) :
    fin1 (F := Ideal) i h x1 seen sum (ix4 (0 : Fin 1) ii mm kk)
      = sum (ix3 ii mm kk) + (if Spec.half < seen (ix3 ii mm (0 : Fin 1)) then Spec.beta else 1)
          * (x1 (ix4 (0 : Fin 1) (irow1 i ii) mm kk) - sum (ix3 ii mm kk)) := by
  unfold fin1 k1_pay3
  refine (shapeCast_abc_1abc_apply _ _ (0 : Fin 1) ii mm kk).trans ?_
  show sum (ix3 ii mm kk) + (broadcastTo S16x64x128 _ broadcasts_S16x64x1_S16x64x128 (ix3 ii mm kk)) * (shapeCast S16x64x128 (View.ld x1 (rI1 i h)) _ (ix3 ii mm kk) - sum (ix3 ii mm kk)) = _
  have e1 : shapeCast S16x64x128 (View.ld x1 (rI1 i h)) shapeCasts_S1x16x64x128_S16x64x128 (ix3 ii mm kk)
      = x1 (ix4 (0 : Fin 1) (irow1 i ii) mm kk) :=
    (shapeCast_1abc_abc_apply _ _ ii mm kk).trans (ld_rI1 i h x1 ii mm kk)
  have e2 : broadcastTo S16x64x128
          (select (cmpf CmpFPredicate.ogt seen (broadcast S16x64x1 (FloatOps.ofBits (F := Ideal) FTy.f32 1056964608#32)))
            (broadcast S16x64x1 (FloatOps.ofBits (F := Ideal) FTy.f32 1063675494#32))
            (broadcast S16x64x1 (FloatOps.ofBits (F := Ideal) FTy.f32 1065353216#32)))
          broadcasts_S16x64x1_S16x64x128 (ix3 ii mm kk)
      = (if Spec.half < seen (ix3 ii mm (0 : Fin 1)) then Spec.beta else 1) := by
    refine (broadcastTo_apply _ broadcasts_S16x64x1_S16x64x128 (ix3 ii mm kk) (ix3 ii mm (0 : Fin 1)) fun a => ?_).trans ?_
    · match a with
      | ⟨0, _⟩ => rfl
      | ⟨1, _⟩ => rfl
      | ⟨2, _⟩ => rfl
    · refine (select_cmp_ogt (seen (ix3 ii mm (0 : Fin 1))) (Ideal.ofBits .f32 1056964608#32) (Ideal.ofBits .f32 1063675494#32) (Ideal.ofBits .f32 1065353216#32)).trans ?_
      rw [Ideal.ofBits_one_f32]
      rfl
  rw [e1, e2]

end Cert.KernelIdeal.Hand

end
-- ==== Proof.KernelIdealExpValCommon.lean ====
import proofs.«408110_j25142738550817_3_alg».proof.Proof.Spec
import Idealize.ShloMosaic.PureOps.Ideal.Laws
import Idealize.ShloMosaic.Lib.ValueIdx
import Mathlib.Algebra.BigOperators.Fin

noncomputable section

namespace Cert.KernelIdeal.Hand

open Idealize.ShloMosaic Idealize.ShloMosaic.ValueIdx
open scoped Classical

def ext64 (f : Fin 64 → EReal) (j : ℕ) : EReal := if h : j < 64 then f ⟨j, h⟩ else 0

-- The sum of f over the first n middle nodes.
def sumUpTo (f : Fin 64 → EReal) (n : ℕ) : EReal := ∑ j ∈ Finset.range n, ext64 f j

-- 1 when some node among the first n satisfies p, else 0.
def flagUpTo (p : Fin 64 → Prop) (n : ℕ) : EReal := if ∃ j : Fin 64, j.val < n ∧ p j then 1 else 0

theorem sumUpTo_zero (f : Fin 64 → EReal) : sumUpTo f (8 * 0) = 0 := by
  unfold sumUpTo; simp

theorem flagUpTo_zero (p : Fin 64 → Prop) : flagUpTo p (8 * 0) = 0 := by
  unfold flagUpTo; simp

theorem sumUpTo_full (f : Fin 64 → EReal) : sumUpTo f 64 = ∑ j : Fin 64, f j := by
  unfold sumUpTo
  rw [← Fin.sum_univ_eq_sum_range]
  refine Finset.sum_congr rfl fun j _ => ?_
  unfold ext64; rw [dif_pos j.isLt]

theorem flagUpTo_full (p : Fin 64 → Prop) : flagUpTo p 64 = if ∃ j : Fin 64, p j then 1 else 0 := by
  unfold flagUpTo
  refine if_congr ⟨fun ⟨j, _, h⟩ => ⟨j, h⟩, fun ⟨j, h⟩ => ⟨j, j.isLt, h⟩⟩ rfl rfl

theorem sumUpTo_tile (f : Fin 64 → EReal) (q : ℕ) (r : Fin 8 → Fin 64) (hr : ∀ jj, (r jj).val = 8 * q + jj.val) :
    sumUpTo f (8 * (q + 1)) = sumUpTo f (8 * q) + ∑ jj : Fin 8, f (r jj) := by
  unfold sumUpTo
  rw [show 8 * (q + 1) = 8 * q + 8 from by ring, Finset.sum_range_add, ← Fin.sum_univ_eq_sum_range (fun x => ext64 f (8 * q + x))]
  congr 1
  refine Finset.sum_congr rfl fun jj _ => ?_
  have h := hr jj
  have hlt : 8 * q + jj.val < 64 := by have := (r jj).isLt; omega
  unfold ext64; rw [dif_pos hlt]
  exact congrArg f (Fin.ext h.symm)

theorem flagUpTo_tile (p : Fin 64 → Prop) (q : ℕ) (r : Fin 8 → Fin 64) (hr : ∀ jj, (r jj).val = 8 * q + jj.val) :
    flagUpTo p (8 * (q + 1)) = max (flagUpTo p (8 * q)) (if ∃ jj : Fin 8, p (r jj) then (1 : EReal) else 0) := by
  unfold flagUpTo
  by_cases hA : ∃ j : Fin 64, j.val < 8 * q ∧ p j
  · obtain ⟨j, hj, hp⟩ := hA
    rw [if_pos ⟨j, by omega, hp⟩, if_pos ⟨j, hj, hp⟩]
    split <;> simp
  · rw [if_neg hA]
    by_cases hB : ∃ jj : Fin 8, p (r jj)
    · have hC : ∃ j : Fin 64, j.val < 8 * (q + 1) ∧ p j := by
        obtain ⟨jj, hp⟩ := hB
        exact ⟨r jj, by have := hr jj; omega, hp⟩
      rw [if_pos hB, if_pos hC]
      simp
    · rw [if_neg hB, if_neg, max_self]
      rintro ⟨j, hj, hp⟩
      by_cases hlt : j.val < 8 * q
      · exact hA ⟨j, hlt, hp⟩
      · refine hB ⟨⟨j.val - 8 * q, by omega⟩, ?_⟩
        have e : r ⟨j.val - 8 * q, by omega⟩ = j := Fin.ext (by rw [hr]; show 8 * q + (j.val - 8 * q) = j.val; omega)
        rw [e]; exact hp

theorem half_eq : Spec.half = (((1 : ℝ) / 2 : ℝ) : EReal) := by
  simp [Spec.half, Ideal.ofBits, Ideal.ieee, -EReal.coe_mul]; norm_num

theorem half_lt_one : Spec.half < (1 : EReal) := by
  rw [half_eq, show (1 : EReal) = ((1 : ℝ) : EReal) by norm_cast]
  exact EReal.coe_lt_coe_iff.mpr (by norm_num)

theorem not_half_lt_zero : ¬ Spec.half < (0 : EReal) := by
  rw [half_eq]
  exact not_lt.mpr (EReal.coe_nonneg.mpr (by norm_num))

theorem ite_half_flag (A : Prop) [Decidable A] [Decidable (Spec.half < (if A then (1 : EReal) else 0))] (x y : EReal) :
    (if Spec.half < (if A then (1 : EReal) else 0) then x else y) = if A then x else y := by
  by_cases h : A
  · have h1 : Spec.half < (if A then (1 : EReal) else 0) := by rw [if_pos h]; exact half_lt_one
    rw [if_pos h1, if_pos h]
  · have h1 : ¬ Spec.half < (if A then (1 : EReal) else 0) := by rw [if_neg h]; exact not_half_lt_zero
    rw [if_neg h1, if_neg h]

def admArr (mk : (⟨5, ![2, 64, 64, 64, 1]⟩ : Shape).Idx → EReal) : Spec.Adm := fun b i j m => Spec.half < mk (ix5 b i j m (0 : Fin 1))

end Cert.KernelIdeal.Hand

end
-- ==== Proof.KernelIdealExpVal1.lean ====
import proofs.«408110_j25142738550817_3_alg».proof.Proof.KernelIdealExpPay1
import proofs.«408110_j25142738550817_3_alg».proof.Proof.KernelIdealExpValCommon

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat)
open scoped Classical

def brow1 (i : grid1.Coords) : Fin 2 := ⟨(i 0).val, (i 0).isLt⟩

theorem coords1 : ∀ t : Fin cfg1.N,
    (grid1.coords t 0).val = t.val / 32 ∧ (grid1.coords t 1).val = t.val / 8 % 4 ∧ (grid1.coords t 2).val = t.val % 8 :=
  (by decide +kernel : ∀ t : Fin grid1.N, _)

theorem N1 : cfg1.N = 64 := by decide

theorem jrow1_val (t : Fin cfg1.N) (jj : Fin 8) : (jrow1 (grid1.coords t) jj).val = 8 * (t.val % 8) + jj.val := by
  obtain ⟨-, -, e⟩ := coords1 t
  show 8 * (grid1.coords t 2).val + jj.val = _
  rw [e]

theorem k1_pay4_apply (ii : Fin 16) (mm : Fin 64) (kk : Fin 128) : (k1_pay4 (F := Ideal)) (ix3 ii mm kk) = 0 := by
  unfold k1_pay4
  rw [shapeCast_self]
  exact Ideal.ofBits_zero_f32

theorem k1_pay5_apply (ii : Fin 16) (mm : Fin 64) : (k1_pay5 (F := Ideal)) (ix3 ii mm (0 : Fin 1)) = 0 := by
  unfold k1_pay5
  rw [shapeCast_self]
  exact Ideal.ofBits_zero_f32

-- Row i of batch b is row i mod 16 of the point that closes row tile i / 16 of that batch.
theorem cover1 (b : Fin 2) (i : Fin 64) :
    ∃ (t : Fin cfg1.N) (ii : Fin 16), t.val % 8 = 7 ∧ brow1 (grid1.coords t) = b ∧ irow1 (grid1.coords t) ii = i := by
  have hN : b.val * 32 + i.val / 16 * 8 + 7 < cfg1.N := lt_of_lt_of_eq (by omega) N1.symm
  obtain ⟨qa, qb, -⟩ := coords1 ⟨b.val * 32 + i.val / 16 * 8 + 7, hN⟩
  refine ⟨⟨b.val * 32 + i.val / 16 * 8 + 7, hN⟩, ⟨i.val % 16, Nat.mod_lt _ (by norm_num)⟩,
    (by show (b.val * 32 + i.val / 16 * 8 + 7) % 8 = 7; omega), Fin.ext ?_, Fin.ext ?_⟩
  · show (grid1.coords ⟨b.val * 32 + i.val / 16 * 8 + 7, hN⟩ 0).val = b.val
    rw [qa]; show (b.val * 32 + i.val / 16 * 8 + 7) / 32 = b.val; omega
  · show 16 * (grid1.coords ⟨b.val * 32 + i.val / 16 * 8 + 7, hN⟩ 1).val + i.val % 16 = i.val
    rw [qb]; show 16 * ((b.val * 32 + i.val / 16 * 8 + 7) / 8 % 4) + i.val % 16 = i.val; omega

section Scan

variable (P g : Spec.G4) (adm : Spec.Adm)

-- What the middle node j adds to the sum at (b, i, m, k).
def term1 (b : Fin 2) (i m : Fin 64) (k : Fin 128) (j : Fin 64) : EReal :=
  if Spec.validP P g adm b i j m then Ideal.logistic (P b i j k * g b j m k) else 0

-- The three blocks at a point hold the operands' entries at the point's batch and rows.
def Blocks (i : grid1.Coords) (x0 : Vec Ideal S1x16x8x128 .f32) (x1 : Vec Ideal S1x64x64x128 .f32) (x2 : Vec Ideal S1x16x8x64x1 .f32) : Prop :=
  (∀ ii jj kk, x0 (ix4 (0 : Fin 1) ii jj kk) = P (brow1 i) (irow1 i ii) (jrow1 i jj) kk)
  ∧ (∀ r mm kk, x1 (ix4 (0 : Fin 1) r mm kk) = g (brow1 i) r mm kk)
  ∧ ∀ ii jj mm, Spec.half < x2 (ix5 (0 : Fin 1) ii jj mm (0 : Fin 1)) ↔ adm (brow1 i) (irow1 i ii) (jrow1 i jj) mm

variable {P g adm}

theorem Blocks.valid_iff {i : grid1.Coords} {x0 : Vec Ideal S1x16x8x128 .f32} {x1 : Vec Ideal S1x64x64x128 .f32} {x2 : Vec Ideal S1x16x8x64x1 .f32}
    (hx : Blocks P g adm i x0 x1 x2) (ii : Fin 16) (jj : Fin 8) (mm : Fin 64) :
    tileValid1 i x0 x1 x2 ii jj mm ↔ Spec.validP P g adm (brow1 i) (irow1 i ii) (jrow1 i jj) mm := by
  unfold tileValid1 Spec.validP
  refine and_congr (hx.2.2 ii jj mm) (not_congr (forall_congr' fun kk => ?_))
  rw [hx.1, hx.2.1]

-- One point's step: from the sum and flag over the middle nodes before the point's tile to those through it.
theorem Blocks.step {i : grid1.Coords} {x0 : Vec Ideal S1x16x8x128 .f32} {x1 : Vec Ideal S1x64x64x128 .f32} {x2 : Vec Ideal S1x16x8x64x1 .f32}
    (hx : Blocks P g adm i x0 x1 x2) (q : ℕ) (hq : ∀ jj, (jrow1 i jj).val = 8 * q + jj.val)
    (acc : Vec Ideal S16x64x128 .f32) (sn : Vec Ideal S16x64x1 .f32)
    (hacc : ∀ ii mm kk, acc (ix3 ii mm kk) = sumUpTo (term1 P g adm (brow1 i) (irow1 i ii) mm kk) (8 * q))
    (hsn : ∀ ii mm, sn (ix3 ii mm (0 : Fin 1)) = flagUpTo (fun j => Spec.validP P g adm (brow1 i) (irow1 i ii) j mm) (8 * q)) :
    (∀ ii mm kk, sumStep1 (F := Ideal) i x0 x1 x2 acc (ix3 ii mm kk) = sumUpTo (term1 P g adm (brow1 i) (irow1 i ii) mm kk) (8 * (q + 1)))
    ∧ (∀ ii mm, seenStep1 (F := Ideal) i x0 x1 x2 sn (ix3 ii mm (0 : Fin 1))
        = flagUpTo (fun j => Spec.validP P g adm (brow1 i) (irow1 i ii) j mm) (8 * (q + 1))) := by
  refine ⟨fun ii mm kk => ?_, fun ii mm => ?_⟩
  · rw [sumStep1_apply, hacc, sumUpTo_tile _ _ (jrow1 i) hq]
    congr 1
    refine Finset.sum_congr rfl fun jj _ => ?_
    unfold term1
    rw [hx.1, hx.2.1]
    exact if_congr (hx.valid_iff ii jj mm) rfl rfl
  · rw [seenStep1_apply, hsn, flagUpTo_tile _ _ (jrow1 i) hq]
    congr 1
    have hiff := exists_congr fun jj => hx.valid_iff ii jj mm
    by_cases E : ∃ jj, tileValid1 i x0 x1 x2 ii jj mm
    · rw [if_pos E, if_pos (hiff.mp E)]
    · rw [if_neg E, if_neg fun h => E (hiff.mpr h)]

variable (P g adm) in
-- A run of the grid: the blocks each point reads, and how each point's scratch pair and stored tile come from the one before.
structure Scan (x0 : Fin cfg1.N → Vec Ideal S1x16x8x128 .f32) (x1 : Fin cfg1.N → Vec Ideal S1x64x64x128 .f32) (x2 : Fin cfg1.N → Vec Ideal S1x16x8x64x1 .f32)
    (outs : (n : ℕ) → n < cfg1.N → Vec Ideal S1x16x64x128 .f32 × Vec Ideal S16x64x128 .f32 × Vec Ideal S16x64x1 .f32) : Prop where
  blocks : ∀ t, Blocks P g adm (grid1.coords t) (x0 t) (x1 t) (x2 t)
  first : ∀ t : Fin cfg1.N, t.val % 8 = 0 → (outs t.val t.isLt).2 =
    (sumStep1 (grid1.coords t) (x0 t) (x1 t) (x2 t) (k1_pay4 (F := Ideal)), seenStep1 (grid1.coords t) (x0 t) (x1 t) (x2 t) (k1_pay5 (F := Ideal)))
  next : ∀ t : Fin cfg1.N, ¬ t.val % 8 = 0 → (outs t.val t.isLt).2 =
    (sumStep1 (grid1.coords t) (x0 t) (x1 t) (x2 t) (outs (t.val - 1) (Nat.lt_of_le_of_lt (Nat.sub_le _ _) t.isLt)).2.1,
     seenStep1 (grid1.coords t) (x0 t) (x1 t) (x2 t) (outs (t.val - 1) (Nat.lt_of_le_of_lt (Nat.sub_le _ _) t.isLt)).2.2)
  last : ∀ t : Fin cfg1.N, t.val % 8 = 7 → ∃ h, (outs t.val t.isLt).1 =
    fin1 (grid1.coords t) h (x1 t) (outs t.val t.isLt).2.2 (outs t.val t.isLt).2.1

variable (P g adm) in
-- After point n the scratch pair holds the sum and the flag over the middle nodes of the row's tiles through the point's.
def Inv1 (outs : (n : ℕ) → n < cfg1.N → Vec Ideal S1x16x64x128 .f32 × Vec Ideal S16x64x128 .f32 × Vec Ideal S16x64x1 .f32) (n : ℕ) (h : n < cfg1.N) : Prop :=
  (∀ ii mm kk, (outs n h).2.1 (ix3 ii mm kk)
      = sumUpTo (term1 P g adm (brow1 (grid1.coords ⟨n, h⟩)) (irow1 (grid1.coords ⟨n, h⟩) ii) mm kk) (8 * (n % 8 + 1)))
  ∧ (∀ ii mm, (outs n h).2.2 (ix3 ii mm (0 : Fin 1))
      = flagUpTo (fun j => Spec.validP P g adm (brow1 (grid1.coords ⟨n, h⟩)) (irow1 (grid1.coords ⟨n, h⟩) ii) j mm) (8 * (n % 8 + 1)))

variable {x0 : Fin cfg1.N → Vec Ideal S1x16x8x128 .f32} {x1 : Fin cfg1.N → Vec Ideal S1x64x64x128 .f32} {x2 : Fin cfg1.N → Vec Ideal S1x16x8x64x1 .f32}
  {outs : (n : ℕ) → n < cfg1.N → Vec Ideal S1x16x64x128 .f32 × Vec Ideal S16x64x128 .f32 × Vec Ideal S16x64x1 .f32}
  (S : Scan P g adm x0 x1 x2 outs)
include S

theorem Scan.inv_first (t : Fin cfg1.N) (h0 : t.val % 8 = 0) : Inv1 P g adm outs t.val t.isLt := by
  unfold Inv1
  rw [S.first t h0]
  refine (S.blocks t).step _ (jrow1_val t) _ _ (fun ii mm kk => ?_) (fun ii mm => ?_)
  · rw [h0, sumUpTo_zero, k1_pay4_apply]
  · rw [h0, flagUpTo_zero, k1_pay5_apply]

theorem Scan.inv_next (t : Fin cfg1.N) (h0 : ¬ t.val % 8 = 0)
    (ih : Inv1 P g adm outs (t.val - 1) (Nat.lt_of_le_of_lt (Nat.sub_le _ _) t.isLt)) : Inv1 P g adm outs t.val t.isLt := by
  obtain ⟨ihs, ihf⟩ := ih
  obtain ⟨pa, pb, -⟩ := coords1 ⟨t.val - 1, Nat.lt_of_le_of_lt (Nat.sub_le _ _) t.isLt⟩
  obtain ⟨qa, qb, -⟩ := coords1 t
  have hlt : t.val < 64 := lt_of_lt_of_eq t.isLt N1
  have hb : brow1 (grid1.coords ⟨t.val - 1, Nat.lt_of_le_of_lt (Nat.sub_le _ _) t.isLt⟩) = brow1 (grid1.coords t) :=
    Fin.ext (by
      show (grid1.coords ⟨t.val - 1, _⟩ 0).val = (grid1.coords t 0).val
      rw [pa, qa]; show (t.val - 1) / 32 = t.val / 32; omega)
  have hi : ∀ ii, irow1 (grid1.coords ⟨t.val - 1, Nat.lt_of_le_of_lt (Nat.sub_le _ _) t.isLt⟩) ii = irow1 (grid1.coords t) ii := fun ii =>
    Fin.ext (by
      show 16 * (grid1.coords ⟨t.val - 1, _⟩ 1).val + ii.val = 16 * (grid1.coords t 1).val + ii.val
      rw [pb, qb]; show 16 * ((t.val - 1) / 8 % 4) + ii.val = 16 * (t.val / 8 % 4) + ii.val; omega)
  have hq : 8 * ((t.val - 1) % 8 + 1) = 8 * (t.val % 8) := by omega
  unfold Inv1
  rw [S.next t h0]
  refine (S.blocks t).step _ (jrow1_val t) _ _ (fun ii mm kk => ?_) (fun ii mm => ?_)
  · rw [ihs ii mm kk, hb, hi, hq]
  · rw [ihf ii mm, hb, hi, hq]

theorem Scan.inv : ∀ (n : ℕ) (h : n < cfg1.N), Inv1 P g adm outs n h
  | 0, h => S.inv_first ⟨0, h⟩ rfl
  | m + 1, h =>
    if h0 : (m + 1) % 8 = 0 then S.inv_first ⟨m + 1, h⟩ h0
    else S.inv_next ⟨m + 1, h⟩ h0 (Scan.inv m (Nat.lt_of_succ_lt h))

-- At the last tile of a row the stored block is the step's formula at the point's batch and rows.
theorem Scan.out_val (t : Fin cfg1.N) (h7 : t.val % 8 = 7) (ii : Fin 16) (mm : Fin 64) (kk : Fin 128) :
    (outs t.val t.isLt).1 (ix4 (0 : Fin 1) ii mm kk)
      = Spec.stepP P g adm (brow1 (grid1.coords t)) (irow1 (grid1.coords t) ii) mm kk := by
  have hs : ∀ ii mm kk, (outs t.val t.isLt).2.1 (ix3 ii mm kk)
      = sumUpTo (term1 P g adm (brow1 (grid1.coords t)) (irow1 (grid1.coords t) ii) mm kk) (8 * (t.val % 8 + 1)) :=
    (S.inv t.val t.isLt).1
  have hf : ∀ ii mm, (outs t.val t.isLt).2.2 (ix3 ii mm (0 : Fin 1))
      = flagUpTo (fun j => Spec.validP P g adm (brow1 (grid1.coords t)) (irow1 (grid1.coords t) ii) j mm) (8 * (t.val % 8 + 1)) :=
    (S.inv t.val t.isLt).2
  obtain ⟨hc, hl⟩ := S.last t h7
  rw [hl, fin1_apply, hs, hf, (S.blocks t).2.1, h7, show 8 * (7 + 1) = 64 from rfl, sumUpTo_full, flagUpTo_full, ite_half_flag]
  unfold Spec.stepP Spec.betaP
  by_cases E : ∃ j, Spec.validP P g adm (brow1 (grid1.coords t)) (irow1 (grid1.coords t) ii) j mm
  · simp only [if_pos E] <;> rfl
  · simp only [if_neg E] <;> rfl

end Scan

variable (V : (c : Dev nD) → (b : Ref sig .tc) → Buf (Elt Ideal) ((c : Thread nD τ).loc b))

abbrev P1 (c : Dev nD) : Spec.G4 := Spec.toG4 (V c (Pipeline.arrRef spec1 0))
abbrev g1 (c : Dev nD) : Spec.G4 := Spec.toG4 (V c (Pipeline.arrRef spec1 1))
abbrev adm1 (c : Dev nD) : Spec.Adm := admArr (V c (Pipeline.arrRef spec1 2))

theorem idx_facts1 : ∀ t : Fin cfg1.N,
    win1_0.index t (0 : Fin 4) = (grid1.coords t 0).val ∧ win1_0.index t (1 : Fin 4) = (grid1.coords t 1).val
    ∧ win1_0.index t (2 : Fin 4) = (grid1.coords t 2).val ∧ win1_0.index t (3 : Fin 4) = 0
    ∧ win1_1.index t (0 : Fin 4) = (grid1.coords t 0).val ∧ win1_1.index t (1 : Fin 4) = 0
    ∧ win1_1.index t (2 : Fin 4) = 0 ∧ win1_1.index t (3 : Fin 4) = 0
    ∧ win1_2.index t (0 : Fin 5) = (grid1.coords t 0).val ∧ win1_2.index t (1 : Fin 5) = (grid1.coords t 1).val
    ∧ win1_2.index t (2 : Fin 5) = (grid1.coords t 2).val ∧ win1_2.index t (3 : Fin 5) = 0 ∧ win1_2.index t (4 : Fin 5) = 0
    ∧ win1_3.index t (0 : Fin 4) = (grid1.coords t 0).val ∧ win1_3.index t (1 : Fin 4) = (grid1.coords t 1).val
    ∧ win1_3.index t (2 : Fin 4) = 0 ∧ win1_3.index t (3 : Fin 4) = 0
    ∧ (grid1.coords t 0).val = t.val / 32 ∧ (grid1.coords t 1).val = t.val / 8 % 4 ∧ (grid1.coords t 2).val = t.val % 8 :=
  (by decide +kernel : ∀ t : Fin grid1.N, _)

theorem emb1_0 (t : Fin cfg1.N) (ii : Fin 16) (jj : Fin 8) (kk : Fin 128) :
    ((cfg1.win 0).blk t).view.emb (ix4 (0 : Fin 1) ii jj kk)
      = ix4 (brow1 (grid1.coords t)) (irow1 (grid1.coords t) ii) (jrow1 (grid1.coords t) jj) kk := by
  obtain ⟨ea, eb, ec, ed, -⟩ := idx_facts1 t
  funext a
  apply Fin.ext
  match a with
  | ⟨0, _⟩ => show win1_0.index t (0 : Fin 4) * 1 + 1 * 0 = (grid1.coords t 0).val; omega
  | ⟨1, _⟩ => show win1_0.index t (1 : Fin 4) * 16 + 1 * ii.val = 16 * (grid1.coords t 1).val + ii.val; omega
  | ⟨2, _⟩ => show win1_0.index t (2 : Fin 4) * 8 + 1 * jj.val = 8 * (grid1.coords t 2).val + jj.val; omega
  | ⟨3, _⟩ => show win1_0.index t (3 : Fin 4) * 128 + 1 * kk.val = kk.val; omega

theorem emb1_1 (t : Fin cfg1.N) (r mm : Fin 64) (kk : Fin 128) :
    ((cfg1.win 1).blk t).view.emb (ix4 (0 : Fin 1) r mm kk) = ix4 (brow1 (grid1.coords t)) r mm kk := by
  obtain ⟨-, -, -, -, ea, eb, ec, ed, -⟩ := idx_facts1 t
  funext a
  apply Fin.ext
  match a with
  | ⟨0, _⟩ => show win1_1.index t (0 : Fin 4) * 1 + 1 * 0 = (grid1.coords t 0).val; omega
  | ⟨1, _⟩ => show win1_1.index t (1 : Fin 4) * 64 + 1 * r.val = r.val; omega
  | ⟨2, _⟩ => show win1_1.index t (2 : Fin 4) * 64 + 1 * mm.val = mm.val; omega
  | ⟨3, _⟩ => show win1_1.index t (3 : Fin 4) * 128 + 1 * kk.val = kk.val; omega

theorem emb1_2 (t : Fin cfg1.N) (ii : Fin 16) (jj : Fin 8) (mm : Fin 64) :
    ((cfg1.win 2).blk t).view.emb (ix5 (0 : Fin 1) ii jj mm (0 : Fin 1))
      = ix5 (brow1 (grid1.coords t)) (irow1 (grid1.coords t) ii) (jrow1 (grid1.coords t) jj) mm (0 : Fin 1) := by
  obtain ⟨-, -, -, -, -, -, -, -, ea, eb, ec, ed, ee, -⟩ := idx_facts1 t
  funext a
  apply Fin.ext
  match a with
  | ⟨0, _⟩ => show win1_2.index t (0 : Fin 5) * 1 + 1 * 0 = (grid1.coords t 0).val; omega
  | ⟨1, _⟩ => show win1_2.index t (1 : Fin 5) * 16 + 1 * ii.val = 16 * (grid1.coords t 1).val + ii.val; omega
  | ⟨2, _⟩ => show win1_2.index t (2 : Fin 5) * 8 + 1 * jj.val = 8 * (grid1.coords t 2).val + jj.val; omega
  | ⟨3, _⟩ => show win1_2.index t (3 : Fin 5) * 64 + 1 * mm.val = mm.val; omega
  | ⟨4, _⟩ => show win1_2.index t (4 : Fin 5) * 1 + 1 * 0 = 0; omega

theorem scan1 (c : Dev nD) : Scan (P1 V c) (g1 V c) (adm1 V c) (fun t => iblk1 V c 0 t) (fun t => iblk1 V c 1 t) (fun t => iblk1 V c 2 t) (outsAt1 V c) where
  blocks t := ⟨fun ii jj kk => congrArg (V c (Pipeline.arrRef spec1 0)) (emb1_0 t ii jj kk),
    fun r mm kk => congrArg (V c (Pipeline.arrRef spec1 1)) (emb1_1 t r mm kk),
    fun ii jj mm => (congrArg (Spec.half < V c (Pipeline.arrRef spec1 2) ·) (emb1_2 t ii jj mm)).to_iff⟩
  first := sc1_first V c
  next := sc1_next V c
  last t h7 := ⟨_, out1_last V c t h7⟩

abbrev G1 (c : Dev nD) : (⟨4, ![2, 64, 64, 128]⟩ : Shape).Idx → EReal :=
  Spec.ofG4 (Spec.stepP (P1 V c) (g1 V c) (adm1 V c))

theorem emb1_3 (t : Fin cfg1.N) (ii : Fin 16) (mm : Fin 64) (kk : Fin 128) :
    ((cfg1.win 3).blk t).view.emb (ix4 (0 : Fin 1) ii mm kk)
      = ix4 (brow1 (grid1.coords t)) (irow1 (grid1.coords t) ii) mm kk := by
  obtain ⟨-, -, -, -, -, -, -, -, -, -, -, -, -, ea, eb, ec, ed, -⟩ := idx_facts1 t
  funext a
  apply Fin.ext
  match a with
  | ⟨0, _⟩ => show win1_3.index t (0 : Fin 4) * 1 + 1 * 0 = (grid1.coords t 0).val; omega
  | ⟨1, _⟩ => show win1_3.index t (1 : Fin 4) * 16 + 1 * ii.val = 16 * (grid1.coords t 1).val + ii.val; omega
  | ⟨2, _⟩ => show win1_3.index t (2 : Fin 4) * 64 + 1 * mm.val = mm.val; omega
  | ⟨3, _⟩ => show win1_3.index t (3 : Fin 4) * 128 + 1 * kk.val = kk.val; omega

theorem flushed1_eq (c : Dev nD) (t : Fin cfg1.N) (hf : (cfg1.win 3).flush t = true) :
    (dat1 (F := Ideal) V c).flushed 3 t = ((cfg1.win 3).blk t).view.read (Elt Ideal) (G1 V c) := by
  have h7 : t.val % 8 = 7 := (flush1_3 t).mp hf
  show (cfg1.win 3).cut (grid1.coords t) ((dat1 (F := Ideal) V c).after 3 t) = _
  rw [after1_3]
  funext y
  obtain ⟨a, ii, mm, kk, rfl⟩ : ∃ (a : Fin 1) (ii : Fin 16) (mm : Fin 64) (kk : Fin 128), y = ix4 a ii mm kk :=
    ⟨y 0, y 1, y 2, y 3, eq_ix4 y⟩
  obtain rfl : a = 0 := Subsingleton.elim _ _
  rw [View.read_apply, emb1_3]
  exact (scan1 V c).out_val t h7 ii mm kk

theorem exp1_value (c : Dev nD) : (dat1 (F := Ideal) V c).arrAt 3 cfg1.N
    = Spec.ofG4 (Spec.stepP (Spec.toG4 (V c (Pipeline.arrRef spec1 0))) (Spec.toG4 (V c (Pipeline.arrRef spec1 1))) (admArr (V c (Pipeline.arrRef spec1 2)))) :=
  (dat1 (F := Ideal) V c).arrAt_eq_of_cover 3 (G1 V c) (flushed1_eq V c) fun x => by
    obtain ⟨b, i, m, k, rfl⟩ : ∃ (b : Fin 2) (i m : Fin 64) (k : Fin 128), x = ix4 b i m k := ⟨x 0, x 1, x 2, x 3, eq_ix4 x⟩
    obtain ⟨t, ii, h7, rfl, rfl⟩ := cover1 b i
    refine ⟨t, (flush1_3 t).mpr h7, ?_⟩
    rw [← emb1_3]
    exact View.emb_mem_set _ _

end Cert.KernelIdeal.Hand

end
-- ==== Proof.KernelIdealExpVal3.lean ====
import proofs.«408110_j25142738550817_3_alg».proof.Proof.KernelIdealRegExp3
import proofs.«408110_j25142738550817_3_alg».proof.Proof.KernelIdealExpVal1

set_option maxRecDepth 16384

noncomputable section

namespace Cert.KernelIdeal.Hand.R3

open Cert.KernelIdeal Cert.KernelIdeal.Gen
open Idealize.ShloMosaic Idealize.ShloMosaic.ValueIdx Idealize.ShloMosaic.TcCoe
open Idealize.ShloMosaic.Pipeline (Dat)
open scoped Classical

variable (V : (c : Dev nD) → (b : Ref sig .tc) → Buf (Elt Ideal) ((c : Thread nD τ).loc b))

abbrev P3 (c : Dev nD) : Spec.G4 := Spec.toG4 (V c (Pipeline.arrRef spec3 0))
abbrev g3 (c : Dev nD) : Spec.G4 := Spec.toG4 (V c (Pipeline.arrRef spec3 1))
abbrev adm3 (c : Dev nD) : Spec.Adm := admArr (V c (Pipeline.arrRef spec3 2))

-- Region 3 runs region 1's body over windows with region 1's index maps: the same scan, read at region 3's arrays.
theorem scan3 (c : Dev nD) : Scan (P3 V c) (g3 V c) (adm3 V c) (fun t => iblk3 V c 0 t) (fun t => iblk3 V c 1 t) (fun t => iblk3 V c 2 t) (outsAt3 V c) where
  blocks t := ⟨fun ii jj kk => congrArg (V c (Pipeline.arrRef spec3 0)) (emb1_0 t ii jj kk),
    fun r mm kk => congrArg (V c (Pipeline.arrRef spec3 1)) (emb1_1 t r mm kk),
    fun ii jj mm => (congrArg (Spec.half < V c (Pipeline.arrRef spec3 2) ·) (emb1_2 t ii jj mm)).to_iff⟩
  first := sc3_first V c
  next := sc3_next V c
  last t h7 := ⟨(hcond3_1 t).mpr h7, out3_last V c t h7⟩

abbrev G3 (c : Dev nD) : (⟨4, ![2, 64, 64, 128]⟩ : Shape).Idx → EReal :=
  Spec.ofG4 (Spec.stepP (P3 V c) (g3 V c) (adm3 V c))

theorem emb3_3 (t : Fin cfg3.N) (ii : Fin 16) (mm : Fin 64) (kk : Fin 128) :
    ((cfg3.win 3).blk t).view.emb (ix4 (0 : Fin 1) ii mm kk)
      = ix4 (brow1 (grid3.coords t)) (irow1 (grid3.coords t) ii) mm kk :=
  emb1_3 t ii mm kk

theorem flushed3_eq (c : Dev nD) (t : Fin cfg3.N) (hf : (cfg3.win 3).flush t = true) :
    (dat3 (F := Ideal) V c).flushed 3 t = ((cfg3.win 3).blk t).view.read (Elt Ideal) (G3 V c) := by
  have h7 : t.val % 8 = 7 := (flush3_3 t).mp hf
  show (cfg3.win 3).cut (grid3.coords t) ((dat3 (F := Ideal) V c).after 3 t) = _
  rw [after3_3]
  funext y
  obtain ⟨a, ii, mm, kk, rfl⟩ : ∃ (a : Fin 1) (ii : Fin 16) (mm : Fin 64) (kk : Fin 128), y = ix4 a ii mm kk :=
    ⟨y 0, y 1, y 2, y 3, eq_ix4 y⟩
  obtain rfl : a = 0 := Subsingleton.elim _ _
  rw [View.read_apply, emb3_3]
  exact (scan3 V c).out_val t h7 ii mm kk

theorem exp3_value (c : Dev nD) : (dat3 (F := Ideal) V c).arrAt 3 cfg3.N
    = Spec.ofG4 (Spec.stepP (Spec.toG4 (V c (Pipeline.arrRef spec3 0))) (Spec.toG4 (V c (Pipeline.arrRef spec3 1))) (admArr (V c (Pipeline.arrRef spec3 2)))) :=
  (dat3 (F := Ideal) V c).arrAt_eq_of_cover 3 (G3 V c) (flushed3_eq V c) fun x => by
    obtain ⟨b, i, m, k, rfl⟩ : ∃ (b : Fin 2) (i m : Fin 64) (k : Fin 128), x = ix4 b i m k := ⟨x 0, x 1, x 2, x 3, eq_ix4 x⟩
    obtain ⟨t, ii, h7, rfl, rfl⟩ := cover1 b i
    refine ⟨t, (flush3_3 t).mpr h7, ?_⟩
    rw [← emb3_3]
    exact View.emb_mem_set _ _

end Cert.KernelIdeal.Hand.R3

end
-- ==== Proof.Reshape.lean ====
import Idealize.ShloMosaic.Lib.Pipeline.Value
import Idealize.ShloMosaic.Lib.ValueIdx

noncomputable section

namespace Cert.Reshape

open Idealize.ShloMosaic Idealize.ShloMosaic.ValueIdx

def rowOf (b : Fin 2) (i j : Fin 64) : Fin 8192 := ⟨(b.val * 64 + i.val) * 64 + j.val, by omega⟩

theorem rows_of_g4 {α : Type} (A : (⟨4, ![2, 64, 64, 128]⟩ : Shape).Idx → α)
    (h : (⟨4, ![2, 64, 64, 128]⟩ : Shape).ShapeCasts (⟨2, ![8192, 128]⟩ : Shape)) (b : Fin 2) (i j : Fin 64) (k : Fin 128) :
    shapeCast (⟨2, ![8192, 128]⟩ : Shape) A h (ix2 (rowOf b i j) k) = A (ix4 b i j k) := by
  refine shapeCast_apply A h _ _ ?_
  rw [Shape.rowMajor_val_four, Shape.rowMajor_val_two]
  rfl

theorem g4_of_rows {α : Type} (R : (⟨2, ![8192, 128]⟩ : Shape).Idx → α)
    (h : (⟨2, ![8192, 128]⟩ : Shape).ShapeCasts (⟨4, ![2, 64, 64, 128]⟩ : Shape)) (b : Fin 2) (i j : Fin 64) (k : Fin 128) :
    shapeCast (⟨4, ![2, 64, 64, 128]⟩ : Shape) R h (ix4 b i j k) = R (ix2 (rowOf b i j) k) := by
  refine shapeCast_apply R h _ _ ?_
  rw [Shape.rowMajor_val_four, Shape.rowMajor_val_two]
  rfl

end Cert.Reshape

end
-- ==== Proof.KernelIdealValue.lean ====
import proofs.«408110_j25142738550817_3_alg».proof.Proof.KernelIdealHostVal
import proofs.«408110_j25142738550817_3_alg».proof.Proof.KernelIdealMatVal0
import proofs.«408110_j25142738550817_3_alg».proof.Proof.KernelIdealMatVal2
import proofs.«408110_j25142738550817_3_alg».proof.Proof.KernelIdealExpVal1
import proofs.«408110_j25142738550817_3_alg».proof.Proof.KernelIdealExpVal3
import proofs.«408110_j25142738550817_3_alg».proof.Proof.Reshape
import proofs.«408110_j25142738550817_3_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open Idealize.ShloMosaic.Pipeline (Dat)
open Cert.Reshape
open scoped Classical

variable (m : (ℓ : Loc nD τ sig) → Buf (Elt Ideal) ℓ) (c : Dev nD)

abbrev gInit : Spec.G4 := Spec.g0 (Spec.toG4 (A0 m c)) (Spec.toA3 (A1 m c))
abbrev Wm : Spec.Wt := Spec.toWt (A3w m c)
abbrev Mk : Spec.M4 := Spec.toM4 (A2 m c)

abbrev gStep : Spec.G4 := Spec.step (gInit m c) (Wm m c) (Mk m c)

theorem W5_v24 : (W5 m c (Proc.devRef .tc main_v24) : S2x64x64x128.Idx → EReal)
    = shapeCast S2x64x64x128 (W4 m c (Proc.devRef .tc main_v23) : S8192x128.Idx → EReal) shapeCasts_S8192x128_S2x64x64x128 := by
  dsimp only [W5]
  simp only [hostOps1]
  after_results
  rfl

theorem W7_v26 : (W7 m c (Proc.devRef .tc main_v26) : S8192x128.Idx → EReal)
    = shapeCast S8192x128 (W6 m c (Proc.devRef .tc main_v25) : S2x64x64x128.Idx → EReal) shapeCasts_S2x64x64x128_S8192x128 := by
  dsimp only [W7]
  simp only [hostOps2]
  after_results
  rfl

theorem W9_v28 : (W9 m c (Proc.devRef .tc main_v28) : S2x64x64x128.Idx → EReal)
    = shapeCast S2x64x64x128 (W8 m c (Proc.devRef .tc main_v27) : S8192x128.Idx → EReal) shapeCasts_S8192x128_S2x64x64x128 := by
  dsimp only [W9]
  simp only [hostOps3]
  after_results
  rfl

theorem W3_arg3 : (W3 m c (Proc.devRef .tc main_arg3) : S128x128.Idx → EReal) = A3w m c := hv_arg3 m c
theorem W7_arg3 : (W7 m c (Proc.devRef .tc main_arg3) : S128x128.Idx → EReal) = A3w m c :=
  calc W7 m c (Proc.devRef .tc main_arg3)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := (W4_arr m c 1).trans (((dat0 (atTc (W3 m)) c).arrAt_in 1 rfl _).trans (A_eq0 (atTc (W3 m)) c 1))
    _ = A3w m c := hv_arg3 m c

theorem W5_v2 : (W5 m c (Proc.devRef .tc main_v2) : S2x64x64x128.Idx → EReal) = Spec.ofG4 (gInit m c) :=
  calc W5 m c (Proc.devRef .tc main_v2)
    _ = W4 m c (Proc.devRef .tc main_v2) := StableHlo.after_of_writes_sub hostOps1 _ hostOps1_writes (by decide)
    _ = W3 m c (Proc.devRef .tc main_v2) := W4_of_ne m c main_v2 (by decide)
    _ = Spec.ofG4 (gInit m c) := hv2 m c

theorem W5_v21 : W5 m c (Proc.devRef .tc main_v21) = W3 m c (Proc.devRef .tc main_v21) :=
  calc W5 m c (Proc.devRef .tc main_v21)
    _ = W4 m c (Proc.devRef .tc main_v21) := StableHlo.after_of_writes_sub hostOps1 _ hostOps1_writes (by decide)
    _ = W3 m c (Proc.devRef .tc main_v21) := W4_of_ne m c main_v21 (by decide)
theorem W9_v21 : W9 m c (Proc.devRef .tc main_v21) = W3 m c (Proc.devRef .tc main_v21) :=
  calc W9 m c (Proc.devRef .tc main_v21)
    _ = W8 m c (Proc.devRef .tc main_v21) := StableHlo.after_of_writes_sub hostOps3 _ hostOps3_writes (by decide)
    _ = W7 m c (Proc.devRef .tc main_v21) := W8_of_ne m c main_v21 (by decide)
    _ = W6 m c (Proc.devRef .tc main_v21) := StableHlo.after_of_writes_sub hostOps2 _ hostOps2_writes (by decide)
    _ = W5 m c (Proc.devRef .tc main_v21) := (W6_arr m c 2).trans (((dat1 (atTc (W5 m)) c).arrAt_in 2 rfl _).trans (A_eq1 (atTc (W5 m)) c 2))
    _ = W3 m c (Proc.devRef .tc main_v21) := W5_v21 m c

theorem W9_v25 : W9 m c (Proc.devRef .tc main_v25) = W6 m c (Proc.devRef .tc main_v25) :=
  calc W9 m c (Proc.devRef .tc main_v25)
    _ = W8 m c (Proc.devRef .tc main_v25) := StableHlo.after_of_writes_sub hostOps3 _ hostOps3_writes (by decide)
    _ = W7 m c (Proc.devRef .tc main_v25) := W8_of_ne m c main_v25 (by decide)
    _ = W6 m c (Proc.devRef .tc main_v25) := StableHlo.after_of_writes_sub hostOps2 _ hostOps2_writes (by decide)

theorem adm_eq : admArr (W3 m c (Proc.devRef .tc main_v21) : S2x64x64x64x1.Idx → EReal) = Spec.admOf (Mk m c) := by
  funext b i j mm
  unfold admArr
  rw [hv21 m c b i j mm]
  by_cases h : Spec.admOf (Spec.toM4 (A2 m c)) b i j mm
  · rw [if_pos h]; exact propext ⟨fun _ => h, fun _ => half_lt_one⟩
  · rw [if_neg h]; exact propext ⟨fun h' => absurd h' not_half_lt_zero, fun h' => absurd h' h⟩

-- Read at the row of (b, i, j), the product of an array holding g by rows with W is the projection of g.
theorem matG0_rows (A : S8192x128.Idx → EReal) (W : S128x128.Idx → EReal) (g : Spec.G4)
    (hA : ∀ b i j k, A (ix2 (rowOf b i j) k) = g b i j k) (b : Fin 2) (i j : Fin 64) (l : Fin 128) :
    matG0 A W (ix2 (rowOf b i j) l) = Spec.proj g (Spec.toWt W) b i j l := by
  rw [matG0_apply]
  unfold Spec.proj
  exact Finset.sum_congr rfl fun k _ => by rw [hA]; rfl

theorem v23_apply (b : Fin 2) (i j : Fin 64) (l : Fin 128) :
    (W4 m c (Proc.devRef .tc main_v23) : S8192x128.Idx → EReal) (ix2 (rowOf b i j) l) = Spec.proj (gInit m c) (Wm m c) b i j l := by
  have h1 : (W4 m c (Proc.devRef .tc main_v23) : S8192x128.Idx → EReal)
      = matG0 (W3 m c (Proc.devRef .tc main_v22) : S8192x128.Idx → EReal) (W3 m c (Proc.devRef .tc main_arg3) : S128x128.Idx → EReal) :=
    (W4_arr m c 2).trans (mat0_value (atTc (W3 m)) c)
  rw [h1, matG0_rows _ _ _ (fun b i j k => hv22_apply m c b i j k (rowOf b i j).isLt), W3_arg3 m c]

theorem v24_eq : Spec.toG4 (W5 m c (Proc.devRef .tc main_v24) : S2x64x64x128.Idx → EReal) = Spec.proj (gInit m c) (Wm m c) := by
  funext b i j l
  show (W5 m c (Proc.devRef .tc main_v24) : S2x64x64x128.Idx → EReal) (ix4 b i j l) = _
  rw [W5_v24 m c, g4_of_rows]
  exact v23_apply m c b i j l

theorem v25_eq : (W6 m c (Proc.devRef .tc main_v25) : S2x64x64x128.Idx → EReal) = Spec.ofG4 (gStep m c) := by
  have h1 : (W6 m c (Proc.devRef .tc main_v25) : S2x64x64x128.Idx → EReal)
      = Spec.ofG4 (Spec.stepP (Spec.toG4 (W5 m c (Proc.devRef .tc main_v24) : S2x64x64x128.Idx → EReal))
          (Spec.toG4 (W5 m c (Proc.devRef .tc main_v2) : S2x64x64x128.Idx → EReal))
          (admArr (W5 m c (Proc.devRef .tc main_v21) : S2x64x64x64x1.Idx → EReal))) :=
    (W6_arr m c 3).trans (exp1_value (atTc (W5 m)) c)
  rw [h1, v24_eq m c, W5_v2 m c, Spec.toG4_ofG4, W5_v21 m c, adm_eq m c]
  rfl

theorem v26_apply (b : Fin 2) (i j : Fin 64) (k : Fin 128) :
    (W7 m c (Proc.devRef .tc main_v26) : S8192x128.Idx → EReal) (ix2 (rowOf b i j) k) = gStep m c b i j k := by
  rw [W7_v26 m c, rows_of_g4, v25_eq m c]
  rfl

theorem v27_apply (b : Fin 2) (i j : Fin 64) (l : Fin 128) :
    (W8 m c (Proc.devRef .tc main_v27) : S8192x128.Idx → EReal) (ix2 (rowOf b i j) l) = Spec.proj (gStep m c) (Wm m c) b i j l := by
  have h1 : (W8 m c (Proc.devRef .tc main_v27) : S8192x128.Idx → EReal)
      = matG0 (W7 m c (Proc.devRef .tc main_v26) : S8192x128.Idx → EReal) (W7 m c (Proc.devRef .tc main_arg3) : S128x128.Idx → EReal) :=
    (W8_arr m c 2).trans (mat2_value (atTc (W7 m)) c)
  rw [h1, matG0_rows _ _ _ (v26_apply m c), W7_arg3 m c]

theorem v28_eq : Spec.toG4 (W9 m c (Proc.devRef .tc main_v28) : S2x64x64x128.Idx → EReal) = Spec.proj (gStep m c) (Wm m c) := by
  funext b i j l
  show (W9 m c (Proc.devRef .tc main_v28) : S2x64x64x128.Idx → EReal) (ix4 b i j l) = _
  rw [W9_v28 m c, g4_of_rows]
  exact v27_apply m c b i j l

theorem v29_eq : (W10 m c (Proc.devRef .tc main_v29) : S2x64x64x128.Idx → EReal)
    = Spec.ofG4 (Spec.step (gStep m c) (Wm m c) (Mk m c)) := by
  have h1 : (W10 m c (Proc.devRef .tc main_v29) : S2x64x64x128.Idx → EReal)
      = Spec.ofG4 (Spec.stepP (Spec.toG4 (W9 m c (Proc.devRef .tc main_v28) : S2x64x64x128.Idx → EReal))
          (Spec.toG4 (W9 m c (Proc.devRef .tc main_v25) : S2x64x64x128.Idx → EReal))
          (admArr (W9 m c (Proc.devRef .tc main_v21) : S2x64x64x64x1.Idx → EReal))) :=
    (W10_arr m c 3).trans (R3.exp3_value (atTc (W9 m)) c)
  rw [h1, v28_eq m c, W9_v25 m c, v25_eq m c, Spec.toG4_ofG4, W9_v21 m c, adm_eq m c]
  rfl

theorem kernel_value :
    (W10 m c (Proc.devRef .tc main_v29) : S2x64x64x128.Idx → EReal)
      = Spec.ofG4 (Spec.result (Spec.toG4 (m ((c : Thread nD τ).loc main_arg0))) (Spec.toA3 (m ((c : Thread nD τ).loc main_arg1)))
          (Spec.toM4 (m ((c : Thread nD τ).loc main_arg2))) (Spec.toWt (m ((c : Thread nD τ).loc main_arg3)))) :=
  v29_eq m c

end Cert.KernelIdeal.Hand

end
-- ==== Proof.RefRunHTab.lean ====
import proofs.«408110_j25142738550817_3_alg».proof.Proof.Gen.ReferenceIdeal
import proofs.«408110_j25142738550817_3_alg».proof.Proof.RefReadP
import Idealize.ShloMosaic.Lib.StableHlo.Run

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F] (W : Valuation τ sig (Elt F)) (a0 : (⟨S2x64x64x128, .f32⟩ : BufTy).Contents (Elt F))
  (a1 : (⟨S2x64x64, .i1⟩ : BufTy).Contents (Elt F)) (a2 : (⟨S2x64x64x64, .i1⟩ : BufTy).Contents (Elt F))
  (a3 : (⟨S128x128, .f32⟩ : BufTy).Contents (Elt F))

attribute [local irreducible] Host.reduce Host.reduceAdd

/- Pk: after stretch ck the arguments still hold a0 … a3 and each buffer read later holds its stage as a function of them. -/
abbrev P0 : Prop :=
  W main_arg0 = a0 ∧ W main_arg1 = a1 ∧ W main_arg2 = a2 ∧ W main_arg3 = a3

abbrev c1 : List (HloOp τ sig (Elt F)) :=
  [ nullary main_v0 (iotaInDim S64x64 32 0),
    nullary main_v1 (iotaInDim S64x64 32 1),
    nullary main_c (constantI S_ 32 0#32),
    unary main_c main_v2 (broadcastInDim S64x64 ![] bcast_S_S64x64) ]

abbrev P1 : Prop :=
  P0 W a0 a1 a2 a3 ∧ W main_v0 = val_main_v0 ∧ W main_v1 = val_main_v1 ∧ W main_v2 = val_main_v2

abbrev c2 : List (HloOp τ sig (Elt F)) :=
  [ binary main_v0 main_v2 main_v3 addi,
    binary main_v3 main_v1 main_v4 (cmpi .eq),
    unary main_v4 main_v5 (broadcastInDim S1x1x64x64x1 ![2, 3] bcast_S64x64_S1x1x64x64x1_2_3),
    unary main_v4 main_v6 (broadcastInDim S1x64x64x1x1 ![1, 2] bcast_S64x64_S1x64x64x1x1_1_2) ]

abbrev P2 : Prop :=
  P0 W a0 a1 a2 a3 ∧ W main_v4 = val_main_v4 ∧ W main_v5 = val_main_v5 ∧ W main_v6 = val_main_v6

abbrev c3 : List (HloOp τ sig (Elt F)) :=
  [ unary main_v5 main_v7 (broadcastInDim S1x64x64x64x1 ![0, 1, 2, 3, 4] bcast_S1x1x64x64x1_S1x64x64x64x1_0_1_2_3_4),
    unary main_v6 main_v8 (broadcastInDim S1x64x64x64x1 ![0, 1, 2, 3, 4] bcast_S1x64x64x1x1_S1x64x64x64x1_0_1_2_3_4),
    binary main_v7 main_v8 main_v9 ori,
    unary main_v4 main_v10 (broadcastInDim S1x64x1x64x1 ![1, 3] bcast_S64x64_S1x64x1x64x1_1_3) ]

abbrev P3 : Prop :=
  P0 W a0 a1 a2 a3 ∧ W main_v9 = val_main_v9 ∧ W main_v10 = val_main_v10

abbrev c4 : List (HloOp τ sig (Elt F)) :=
  [ unary main_v10 main_v11 (broadcastInDim S1x64x64x64x1 ![0, 1, 2, 3, 4] bcast_S1x64x1x64x1_S1x64x64x64x1_0_1_2_3_4),
    binary main_v9 main_v11 main_v12 ori,
    unary main_arg1 main_v13 (broadcastInDim S2x64x64x1 ![0, 1, 2] bcast_S2x64x64_S2x64x64x1_0_1_2),
    nullary main_cst (constant S_ .f32 0x00000000#32) ]

abbrev P4 : Prop :=
  P0 W a0 a1 a2 a3 ∧ W main_v12 = val_main_v12 ∧ W main_v13 = val_main_v13 a1 ∧ W main_cst = val_main_cst

abbrev c5 : List (HloOp τ sig (Elt F)) :=
  [ unary main_cst main_v14 (broadcastInDim S2x64x64x128 ![] bcast_S_S2x64x64x128),
    unary main_v13 main_call0_v0 (broadcastInDim S2x64x64x128 ![0, 1, 2, 3] bcast_S2x64x64x1_S2x64x64x128_0_1_2_3),
    ternary main_call0_v0 main_arg0 main_v14 main_v15 select,
    binary main_v15 main_arg3 main_v16 (fun l r => Host.dotGeneral dot_S2x64x64x128_S128x128_S2x64x64x128_3_0_012_1_n_n none l r) ]

abbrev P5 : Prop :=
  P0 W a0 a1 a2 a3 ∧ W main_v12 = val_main_v12 ∧ W main_v15 = val_main_v15 a0 a1 ∧ W main_v16 = val_main_v16 a0 a1 a3

abbrev c6 : List (HloOp τ sig (Elt F)) :=
  [ unary main_v16 main_v17 (broadcastInDim S2x64x64x1x128 ![0, 1, 2, 4] bcast_S2x64x64x128_S2x64x64x1x128_0_1_2_4),
    unary main_v15 main_v18 (broadcastInDim S2x1x64x64x128 ![0, 2, 3, 4] bcast_S2x64x64x128_S2x1x64x64x128_0_2_3_4),
    unary main_v17 main_v19 (broadcastInDim S2x64x64x64x128 ![0, 1, 2, 3, 4] bcast_S2x64x64x1x128_S2x64x64x64x128_0_1_2_3_4),
    unary main_v18 main_v20 (broadcastInDim S2x64x64x64x128 ![0, 1, 2, 3, 4] bcast_S2x1x64x64x128_S2x64x64x64x128_0_1_2_3_4) ]

abbrev P6 : Prop :=
  P0 W a0 a1 a2 a3 ∧ W main_v12 = val_main_v12 ∧ W main_v15 = val_main_v15 a0 a1 ∧ W main_v19 = val_main_v19 a0 a1 a3
    ∧ W main_v20 = val_main_v20 a0 a1

abbrev c7 : List (HloOp τ sig (Elt F)) :=
  [ binary main_v19 main_v20 main_v21 mulf,
    nullary main_cst_0 (constant S_ .f32 0xFF800000#32),
    unary main_v12 main_call1_v0 (broadcastInDim S2x64x64x64x128 ![0, 1, 2, 3, 4] bcast_S1x64x64x64x1_S2x64x64x64x128_0_1_2_3_4),
    unary main_cst_0 main_call1_v1 (broadcastInDim S2x64x64x64x128 ![] bcast_S_S2x64x64x64x128) ]

abbrev P7 : Prop :=
  P0 W a0 a1 a2 a3 ∧ W main_v12 = val_main_v12 ∧ W main_v15 = val_main_v15 a0 a1 ∧ W main_v21 = val_main_v21 a0 a1 a3
    ∧ W main_call1_v0 = val_main_call1_v0 ∧ W main_call1_v1 = val_main_call1_v1

abbrev c8 : List (HloOp τ sig (Elt F)) :=
  [ ternary main_call1_v0 main_call1_v1 main_v21 main_v22 select,
    unary main_arg2 main_v23 (broadcastInDim S2x64x64x64x1 ![0, 1, 2, 3] bcast_S2x64x64x64_S2x64x64x64x1_0_1_2_3),
    nullary main_cst_1 (constant S_ .f32 0xFF800000#32),
    unary main_v23 main_call2_v0 (broadcastInDim S2x64x64x64x128 ![0, 1, 2, 3, 4] bcast_S2x64x64x64x1_S2x64x64x64x128_0_1_2_3_4) ]

abbrev P8 : Prop :=
  P0 W a0 a1 a2 a3 ∧ W main_v12 = val_main_v12 ∧ W main_v15 = val_main_v15 a0 a1 ∧ W main_v22 = val_main_v22 a0 a1 a3
    ∧ W main_cst_1 = val_main_cst_1 ∧ W main_call2_v0 = val_main_call2_v0 a2

abbrev c9 : List (HloOp τ sig (Elt F)) :=
  [ unary main_cst_1 main_call2_v1 (broadcastInDim S2x64x64x64x128 ![] bcast_S_S2x64x64x64x128),
    ternary main_call2_v0 main_v22 main_call2_v1 main_v24 select,
    nullary main_cst_2 (constant S_ .f32 0x00000000#32),
    unary main_cst_2 main_v25 (broadcastInDim S2x64x64x64x128 ![] bcast_S_S2x64x64x64x128) ]

abbrev P9 : Prop :=
  P0 W a0 a1 a2 a3 ∧ W main_v12 = val_main_v12 ∧ W main_v15 = val_main_v15 a0 a1
    ∧ W main_v24 = val_main_v24 a0 a1 a2 a3 ∧ W main_v25 = val_main_v25

abbrev c10 : List (HloOp τ sig (Elt F)) :=
  [ binary main_v24 main_v25 main_v26 (cmpf .oeq),
    nullary main_c_3 (constantI S_ 1 1#1),
    binary main_v26 main_c_3 main_v27 (fun x v => Host.reduce IntOp.andi x v reducesTo_S2x64x64x64x128_S2x64x64x64_d4 h_S_),
    unary main_v27 main_v28 (broadcastInDim S2x64x64x64x1 ![0, 1, 2, 3] bcast_S2x64x64x64_S2x64x64x64x1_0_1_2_3) ]

abbrev P10 : Prop :=
  P0 W a0 a1 a2 a3 ∧ W main_v12 = val_main_v12 ∧ W main_v15 = val_main_v15 a0 a1
    ∧ W main_v24 = val_main_v24 a0 a1 a2 a3 ∧ W main_v28 = val_main_v28 a0 a1 a2 a3

abbrev c11 : List (HloOp τ sig (Elt F)) :=
  [ nullary main_cst_4 (constant S_ .f32 0xFF800000#32),
    unary main_v28 main_call3_v0 (broadcastInDim S2x64x64x64x128 ![0, 1, 2, 3, 4] bcast_S2x64x64x64x1_S2x64x64x64x128_0_1_2_3_4),
    unary main_cst_4 main_call3_v1 (broadcastInDim S2x64x64x64x128 ![] bcast_S_S2x64x64x64x128),
    ternary main_call3_v0 main_call3_v1 main_v24 main_v29 select ]

abbrev P11 : Prop :=
  P0 W a0 a1 a2 a3 ∧ W main_v12 = val_main_v12 ∧ W main_v15 = val_main_v15 a0 a1
    ∧ W main_v29 = val_main_v29 a0 a1 a2 a3

abbrev c12 : List (HloOp τ sig (Elt F)) :=
  [ unary main_v29 main_call4_v0 Host.absf,
    nullary main_call4_cst (constant S_ .f32 0x7F800000#32),
    unary main_call4_cst main_call4_v1 (broadcastInDim S2x64x64x64x128 ![] bcast_S_S2x64x64x64x128),
    binary main_call4_v0 main_call4_v1 main_v30 (cmpf .oeq) ]

abbrev P12 : Prop :=
  P0 W a0 a1 a2 a3 ∧ W main_v12 = val_main_v12 ∧ W main_v15 = val_main_v15 a0 a1
    ∧ W main_v29 = val_main_v29 a0 a1 a2 a3 ∧ W main_v30 = val_main_v30 a0 a1 a2 a3

abbrev c13 : List (HloOp τ sig (Elt F)) :=
  [ nullary main_c_5 (constantI S_ 1 1#1),
    binary main_v30 main_c_5 main_v31 (fun x v => Host.reduce IntOp.andi x v reducesTo_S2x64x64x64x128_S2x64x64x128_d2 h_S_),
    nullary main_cst_6 (constant S_ .f32 0x3F800000#32),
    nullary main_cst_7 (constant S_ .f32 0x3F666666#32) ]

abbrev P13 : Prop :=
  P0 W a0 a1 a2 a3 ∧ W main_v12 = val_main_v12 ∧ W main_v15 = val_main_v15 a0 a1
    ∧ W main_v29 = val_main_v29 a0 a1 a2 a3 ∧ W main_v31 = val_main_v31 a0 a1 a2 a3 ∧ W main_cst_6 = val_main_cst_6
    ∧ W main_cst_7 = val_main_cst_7

abbrev c14 : List (HloOp τ sig (Elt F)) :=
  [ unary main_cst_6 main_call5_v0 (broadcastInDim S2x64x64x128 ![] bcast_S_S2x64x64x128),
    unary main_cst_7 main_call5_v1 (broadcastInDim S2x64x64x128 ![] bcast_S_S2x64x64x128),
    ternary main_v31 main_call5_v0 main_call5_v1 main_v32 select,
    unary main_v29 main_v33 Host.negf ]

abbrev P14 : Prop :=
  P0 W a0 a1 a2 a3 ∧ W main_v12 = val_main_v12 ∧ W main_v15 = val_main_v15 a0 a1
    ∧ W main_v32 = val_main_v32 a0 a1 a2 a3 ∧ W main_v33 = val_main_v33 a0 a1 a2 a3

abbrev c15 : List (HloOp τ sig (Elt F)) :=
  [ unary main_v33 main_v34 Host.exp,
    nullary main_cst_8 (constant S_ .f32 0x3F800000#32),
    unary main_cst_8 main_v35 (broadcastInDim S2x64x64x64x128 ![] bcast_S_S2x64x64x64x128),
    binary main_v35 main_v34 main_v36 addf ]

abbrev P15 : Prop :=
  P0 W a0 a1 a2 a3 ∧ W main_v12 = val_main_v12 ∧ W main_v15 = val_main_v15 a0 a1
    ∧ W main_v32 = val_main_v32 a0 a1 a2 a3 ∧ W main_v36 = val_main_v36 a0 a1 a2 a3

abbrev c16 : List (HloOp τ sig (Elt F)) :=
  [ nullary main_cst_9 (constant S_ .f32 0x3F800000#32),
    unary main_cst_9 main_v37 (broadcastInDim S2x64x64x64x128 ![] bcast_S_S2x64x64x64x128),
    binary main_v37 main_v36 main_v38 Host.divf,
    nullary main_cst_10 (constant S_ .f32 0x00000000#32) ]

abbrev P16 : Prop :=
  P0 W a0 a1 a2 a3 ∧ W main_v12 = val_main_v12 ∧ W main_v15 = val_main_v15 a0 a1
    ∧ W main_v32 = val_main_v32 a0 a1 a2 a3 ∧ W main_v38 = val_main_v38 a0 a1 a2 a3 ∧ W main_cst_10 = val_main_cst_10

abbrev c17 : List (HloOp τ sig (Elt F)) :=
  [ binary main_v38 main_cst_10 main_v39 (fun x v => Host.reduceAdd x v reducesTo_S2x64x64x64x128_S2x64x64x128_d2 h_S_),
    binary main_v15 main_v39 main_v40 subf,
    binary main_v32 main_v40 main_v41 mulf,
    binary main_v39 main_v41 main_v42 addf ]

abbrev P17 : Prop :=
  P0 W a0 a1 a2 a3 ∧ W main_v12 = val_main_v12 ∧ W main_v42 = val_main_v42 a0 a1 a2 a3

abbrev c18 : List (HloOp τ sig (Elt F)) :=
  [ binary main_v42 main_arg3 main_v43 (fun l r => Host.dotGeneral dot_S2x64x64x128_S128x128_S2x64x64x128_3_0_012_1_n_n none l r),
    unary main_v43 main_v44 (broadcastInDim S2x64x64x1x128 ![0, 1, 2, 4] bcast_S2x64x64x128_S2x64x64x1x128_0_1_2_4),
    unary main_v42 main_v45 (broadcastInDim S2x1x64x64x128 ![0, 2, 3, 4] bcast_S2x64x64x128_S2x1x64x64x128_0_2_3_4),
    unary main_v44 main_v46 (broadcastInDim S2x64x64x64x128 ![0, 1, 2, 3, 4] bcast_S2x64x64x1x128_S2x64x64x64x128_0_1_2_3_4) ]

abbrev P18 : Prop :=
  P0 W a0 a1 a2 a3 ∧ W main_v12 = val_main_v12 ∧ W main_v42 = val_main_v42 a0 a1 a2 a3
    ∧ W main_v45 = val_main_v45 a0 a1 a2 a3 ∧ W main_v46 = val_main_v46 a0 a1 a2 a3

abbrev c19 : List (HloOp τ sig (Elt F)) :=
  [ unary main_v45 main_v47 (broadcastInDim S2x64x64x64x128 ![0, 1, 2, 3, 4] bcast_S2x1x64x64x128_S2x64x64x64x128_0_1_2_3_4),
    binary main_v46 main_v47 main_v48 mulf,
    nullary main_cst_11 (constant S_ .f32 0xFF800000#32),
    unary main_v12 main_call6_v0 (broadcastInDim S2x64x64x64x128 ![0, 1, 2, 3, 4] bcast_S1x64x64x64x1_S2x64x64x64x128_0_1_2_3_4) ]

abbrev P19 : Prop :=
  P0 W a0 a1 a2 a3 ∧ W main_v42 = val_main_v42 a0 a1 a2 a3 ∧ W main_v48 = val_main_v48 a0 a1 a2 a3
    ∧ W main_cst_11 = val_main_cst_11 ∧ W main_call6_v0 = val_main_call6_v0

abbrev c20 : List (HloOp τ sig (Elt F)) :=
  [ unary main_cst_11 main_call6_v1 (broadcastInDim S2x64x64x64x128 ![] bcast_S_S2x64x64x64x128),
    ternary main_call6_v0 main_call6_v1 main_v48 main_v49 select,
    unary main_arg2 main_v50 (broadcastInDim S2x64x64x64x1 ![0, 1, 2, 3] bcast_S2x64x64x64_S2x64x64x64x1_0_1_2_3),
    nullary main_cst_12 (constant S_ .f32 0xFF800000#32) ]

abbrev P20 : Prop :=
  P0 W a0 a1 a2 a3 ∧ W main_v42 = val_main_v42 a0 a1 a2 a3 ∧ W main_v49 = val_main_v49 a0 a1 a2 a3
    ∧ W main_v50 = val_main_v50 a2 ∧ W main_cst_12 = val_main_cst_12

abbrev c21 : List (HloOp τ sig (Elt F)) :=
  [ unary main_v50 main_call7_v0 (broadcastInDim S2x64x64x64x128 ![0, 1, 2, 3, 4] bcast_S2x64x64x64x1_S2x64x64x64x128_0_1_2_3_4),
    unary main_cst_12 main_call7_v1 (broadcastInDim S2x64x64x64x128 ![] bcast_S_S2x64x64x64x128),
    ternary main_call7_v0 main_v49 main_call7_v1 main_v51 select,
    nullary main_cst_13 (constant S_ .f32 0x00000000#32) ]

abbrev P21 : Prop :=
  P0 W a0 a1 a2 a3 ∧ W main_v42 = val_main_v42 a0 a1 a2 a3 ∧ W main_v51 = val_main_v51 a0 a1 a2 a3
    ∧ W main_cst_13 = val_main_cst_13

abbrev c22 : List (HloOp τ sig (Elt F)) :=
  [ unary main_cst_13 main_v52 (broadcastInDim S2x64x64x64x128 ![] bcast_S_S2x64x64x64x128),
    binary main_v51 main_v52 main_v53 (cmpf .oeq),
    nullary main_c_14 (constantI S_ 1 1#1),
    binary main_v53 main_c_14 main_v54 (fun x v => Host.reduce IntOp.andi x v reducesTo_S2x64x64x64x128_S2x64x64x64_d4 h_S_) ]

abbrev P22 : Prop :=
  P0 W a0 a1 a2 a3 ∧ W main_v42 = val_main_v42 a0 a1 a2 a3 ∧ W main_v51 = val_main_v51 a0 a1 a2 a3
    ∧ W main_v54 = val_main_v54 a0 a1 a2 a3

abbrev c23 : List (HloOp τ sig (Elt F)) :=
  [ unary main_v54 main_v55 (broadcastInDim S2x64x64x64x1 ![0, 1, 2, 3] bcast_S2x64x64x64_S2x64x64x64x1_0_1_2_3),
    nullary main_cst_15 (constant S_ .f32 0xFF800000#32),
    unary main_v55 main_call8_v0 (broadcastInDim S2x64x64x64x128 ![0, 1, 2, 3, 4] bcast_S2x64x64x64x1_S2x64x64x64x128_0_1_2_3_4),
    unary main_cst_15 main_call8_v1 (broadcastInDim S2x64x64x64x128 ![] bcast_S_S2x64x64x64x128) ]

abbrev P23 : Prop :=
  P0 W a0 a1 a2 a3 ∧ W main_v42 = val_main_v42 a0 a1 a2 a3 ∧ W main_v51 = val_main_v51 a0 a1 a2 a3
    ∧ W main_call8_v0 = val_main_call8_v0 a0 a1 a2 a3 ∧ W main_call8_v1 = val_main_call8_v1

abbrev c24 : List (HloOp τ sig (Elt F)) :=
  [ ternary main_call8_v0 main_call8_v1 main_v51 main_v56 select,
    unary main_v56 main_call9_v0 Host.absf,
    nullary main_call9_cst (constant S_ .f32 0x7F800000#32),
    unary main_call9_cst main_call9_v1 (broadcastInDim S2x64x64x64x128 ![] bcast_S_S2x64x64x64x128) ]

abbrev P24 : Prop :=
  P0 W a0 a1 a2 a3 ∧ W main_v42 = val_main_v42 a0 a1 a2 a3 ∧ W main_v56 = val_main_v56 a0 a1 a2 a3
    ∧ W main_call9_v0 = val_main_call9_v0 a0 a1 a2 a3 ∧ W main_call9_v1 = val_main_call9_v1

abbrev c25 : List (HloOp τ sig (Elt F)) :=
  [ binary main_call9_v0 main_call9_v1 main_v57 (cmpf .oeq),
    nullary main_c_16 (constantI S_ 1 1#1),
    binary main_v57 main_c_16 main_v58 (fun x v => Host.reduce IntOp.andi x v reducesTo_S2x64x64x64x128_S2x64x64x128_d2 h_S_),
    nullary main_cst_17 (constant S_ .f32 0x3F800000#32) ]

abbrev P25 : Prop :=
  P0 W a0 a1 a2 a3 ∧ W main_v42 = val_main_v42 a0 a1 a2 a3 ∧ W main_v56 = val_main_v56 a0 a1 a2 a3
    ∧ W main_v58 = val_main_v58 a0 a1 a2 a3 ∧ W main_cst_17 = val_main_cst_17

abbrev c26 : List (HloOp τ sig (Elt F)) :=
  [ nullary main_cst_18 (constant S_ .f32 0x3F666666#32),
    unary main_cst_17 main_call10_v0 (broadcastInDim S2x64x64x128 ![] bcast_S_S2x64x64x128),
    unary main_cst_18 main_call10_v1 (broadcastInDim S2x64x64x128 ![] bcast_S_S2x64x64x128),
    ternary main_v58 main_call10_v0 main_call10_v1 main_v59 select ]

abbrev P26 : Prop :=
  P0 W a0 a1 a2 a3 ∧ W main_v42 = val_main_v42 a0 a1 a2 a3 ∧ W main_v56 = val_main_v56 a0 a1 a2 a3
    ∧ W main_v59 = val_main_v59 a0 a1 a2 a3

abbrev c27 : List (HloOp τ sig (Elt F)) :=
  [ unary main_v56 main_v60 Host.negf,
    unary main_v60 main_v61 Host.exp,
    nullary main_cst_19 (constant S_ .f32 0x3F800000#32),
    unary main_cst_19 main_v62 (broadcastInDim S2x64x64x64x128 ![] bcast_S_S2x64x64x64x128) ]

abbrev P27 : Prop :=
  P0 W a0 a1 a2 a3 ∧ W main_v42 = val_main_v42 a0 a1 a2 a3 ∧ W main_v59 = val_main_v59 a0 a1 a2 a3
    ∧ W main_v61 = val_main_v61 a0 a1 a2 a3 ∧ W main_v62 = val_main_v62

abbrev c28 : List (HloOp τ sig (Elt F)) :=
  [ binary main_v62 main_v61 main_v63 addf,
    nullary main_cst_20 (constant S_ .f32 0x3F800000#32),
    unary main_cst_20 main_v64 (broadcastInDim S2x64x64x64x128 ![] bcast_S_S2x64x64x64x128),
    binary main_v64 main_v63 main_v65 Host.divf ]

abbrev P28 : Prop :=
  P0 W a0 a1 a2 a3 ∧ W main_v42 = val_main_v42 a0 a1 a2 a3 ∧ W main_v59 = val_main_v59 a0 a1 a2 a3
    ∧ W main_v65 = val_main_v65 a0 a1 a2 a3

abbrev c29 : List (HloOp τ sig (Elt F)) :=
  [ nullary main_cst_21 (constant S_ .f32 0x00000000#32),
    binary main_v65 main_cst_21 main_v66 (fun x v => Host.reduceAdd x v reducesTo_S2x64x64x64x128_S2x64x64x128_d2 h_S_),
    binary main_v42 main_v66 main_v67 subf,
    binary main_v59 main_v67 main_v68 mulf ]

abbrev P29 : Prop :=
  P0 W a0 a1 a2 a3 ∧ W main_v66 = val_main_v66 a0 a1 a2 a3 ∧ W main_v68 = val_main_v68 a0 a1 a2 a3

abbrev c30 : List (HloOp τ sig (Elt F)) :=
  [ binary main_v66 main_v68 main_v69 addf ]

abbrev P30 : Prop :=
  P0 W a0 a1 a2 a3 ∧ W main_v69 = val_main_v69 a0 a1 a2 a3

abbrev stretches : List (HloOp τ sig (Elt F)) :=
  c1 ++ (c2 ++ (c3 ++ (c4 ++ (c5 ++ (c6 ++ (c7 ++ (c8 ++ (c9 ++ (c10 ++ (c11 ++ (c12 ++ (c13 ++ (c14 ++ (c15 ++ (c16 ++ (c17 ++ (c18 ++ (c19 ++ (c20 ++ (c21 ++ (c22 ++ (c23 ++ (c24 ++ (c25 ++ (c26 ++ (c27 ++ (c28 ++ (c29 ++ (c30)))))))))))))))))))))))))))))

variable {W a0 a1 a2 a3}

theorem L1 (h : P0 W a0 a1 a2 a3) : P1 (after c1 W) a0 a1 a2 a3 := by
  obtain ⟨harg0, harg1, harg2, harg3⟩ := h
  and_intros <;> after_results
  exacts [harg0, harg1, harg2, harg3, rfl, rfl, rfl]

theorem L2 (h : P1 W a0 a1 a2 a3) : P2 (after c2 W) a0 a1 a2 a3 := by
  obtain ⟨⟨harg0, harg1, harg2, harg3⟩, hv0, hv1, hv2⟩ := h
  and_intros <;> after_results
  exacts [harg0, harg1, harg2, harg3, by rw [hv0, hv2, hv1]; rfl, by rw [hv0, hv2, hv1]; rfl,
    by rw [hv0, hv2, hv1]; rfl]

theorem L3 (h : P2 W a0 a1 a2 a3) : P3 (after c3 W) a0 a1 a2 a3 := by
  obtain ⟨⟨harg0, harg1, harg2, harg3⟩, hv4, hv5, hv6⟩ := h
  and_intros <;> after_results
  exacts [harg0, harg1, harg2, harg3, by rw [hv5, hv6]; rfl, by rw [hv4]; rfl]

theorem L4 (h : P3 W a0 a1 a2 a3) : P4 (after c4 W) a0 a1 a2 a3 := by
  obtain ⟨⟨harg0, harg1, harg2, harg3⟩, hv9, hv10⟩ := h
  and_intros <;> after_results
  exacts [harg0, harg1, harg2, harg3, by rw [hv9, hv10]; rfl, by rw [harg1]; rfl, rfl]

theorem L5 (h : P4 W a0 a1 a2 a3) : P5 (after c5 W) a0 a1 a2 a3 := by
  obtain ⟨⟨harg0, harg1, harg2, harg3⟩, hv12, hv13, hcst⟩ := h
  and_intros <;> after_results
  exacts [harg0, harg1, harg2, harg3, hv12, by rw [hv13, harg0, hcst]; rfl, by rw [hv13, harg0, hcst, harg3]; rfl]

theorem L6 (h : P5 W a0 a1 a2 a3) : P6 (after c6 W) a0 a1 a2 a3 := by
  obtain ⟨⟨harg0, harg1, harg2, harg3⟩, hv12, hv15, hv16⟩ := h
  and_intros <;> after_results
  exacts [harg0, harg1, harg2, harg3, hv12, hv15, by rw [hv16]; rfl, by rw [hv15]; rfl]

theorem L7 (h : P6 W a0 a1 a2 a3) : P7 (after c7 W) a0 a1 a2 a3 := by
  obtain ⟨⟨harg0, harg1, harg2, harg3⟩, hv12, hv15, hv19, hv20⟩ := h
  and_intros <;> after_results
  exacts [harg0, harg1, harg2, harg3, hv12, hv15, by rw [hv19, hv20]; rfl, by rw [hv12]; rfl, rfl]

theorem L8 (h : P7 W a0 a1 a2 a3) : P8 (after c8 W) a0 a1 a2 a3 := by
  obtain ⟨⟨harg0, harg1, harg2, harg3⟩, hv12, hv15, hv21, hcall1_v0, hcall1_v1⟩ := h
  and_intros <;> after_results
  exacts [harg0, harg1, harg2, harg3, hv12, hv15, by rw [hcall1_v0, hcall1_v1, hv21]; rfl, rfl, by rw [harg2]; rfl]

theorem L9 (h : P8 W a0 a1 a2 a3) : P9 (after c9 W) a0 a1 a2 a3 := by
  obtain ⟨⟨harg0, harg1, harg2, harg3⟩, hv12, hv15, hv22, hcst_1, hcall2_v0⟩ := h
  and_intros <;> after_results
  exacts [harg0, harg1, harg2, harg3, hv12, hv15, by rw [hcall2_v0, hv22, hcst_1]; rfl, rfl]

theorem L10 (h : P9 W a0 a1 a2 a3) : P10 (after c10 W) a0 a1 a2 a3 := by
  obtain ⟨⟨harg0, harg1, harg2, harg3⟩, hv12, hv15, hv24, hv25⟩ := h
  and_intros <;> after_results
  exacts [harg0, harg1, harg2, harg3, hv12, hv15, hv24, by rw [hv24, hv25]; rfl]

theorem L11 (h : P10 W a0 a1 a2 a3) : P11 (after c11 W) a0 a1 a2 a3 := by
  obtain ⟨⟨harg0, harg1, harg2, harg3⟩, hv12, hv15, hv24, hv28⟩ := h
  and_intros <;> after_results
  exacts [harg0, harg1, harg2, harg3, hv12, hv15, by rw [hv28, hv24]; rfl]

theorem L12 (h : P11 W a0 a1 a2 a3) : P12 (after c12 W) a0 a1 a2 a3 := by
  obtain ⟨⟨harg0, harg1, harg2, harg3⟩, hv12, hv15, hv29⟩ := h
  and_intros <;> after_results
  exacts [harg0, harg1, harg2, harg3, hv12, hv15, hv29, by rw [hv29]; rfl]

theorem L13 (h : P12 W a0 a1 a2 a3) : P13 (after c13 W) a0 a1 a2 a3 := by
  obtain ⟨⟨harg0, harg1, harg2, harg3⟩, hv12, hv15, hv29, hv30⟩ := h
  and_intros <;> after_results
  exacts [harg0, harg1, harg2, harg3, hv12, hv15, hv29, by rw [hv30]; rfl, rfl, rfl]

theorem L14 (h : P13 W a0 a1 a2 a3) : P14 (after c14 W) a0 a1 a2 a3 := by
  obtain ⟨⟨harg0, harg1, harg2, harg3⟩, hv12, hv15, hv29, hv31, hcst_6, hcst_7⟩ := h
  and_intros <;> after_results
  exacts [harg0, harg1, harg2, harg3, hv12, hv15, by rw [hv31, hcst_6, hcst_7]; rfl, by rw [hv29]; rfl]

theorem L15 (h : P14 W a0 a1 a2 a3) : P15 (after c15 W) a0 a1 a2 a3 := by
  obtain ⟨⟨harg0, harg1, harg2, harg3⟩, hv12, hv15, hv32, hv33⟩ := h
  and_intros <;> after_results
  exacts [harg0, harg1, harg2, harg3, hv12, hv15, hv32, by rw [hv33]; rfl]

theorem L16 (h : P15 W a0 a1 a2 a3) : P16 (after c16 W) a0 a1 a2 a3 := by
  obtain ⟨⟨harg0, harg1, harg2, harg3⟩, hv12, hv15, hv32, hv36⟩ := h
  and_intros <;> after_results
  exacts [harg0, harg1, harg2, harg3, hv12, hv15, hv32, by rw [hv36]; rfl, rfl]

theorem L17 (h : P16 W a0 a1 a2 a3) : P17 (after c17 W) a0 a1 a2 a3 := by
  obtain ⟨⟨harg0, harg1, harg2, harg3⟩, hv12, hv15, hv32, hv38, hcst_10⟩ := h
  and_intros <;> after_results
  exacts [harg0, harg1, harg2, harg3, hv12, by rw [hv38, hcst_10, hv32, hv15]; rfl]

theorem L18 (h : P17 W a0 a1 a2 a3) : P18 (after c18 W) a0 a1 a2 a3 := by
  obtain ⟨⟨harg0, harg1, harg2, harg3⟩, hv12, hv42⟩ := h
  and_intros <;> after_results
  exacts [harg0, harg1, harg2, harg3, hv12, hv42, by rw [hv42]; rfl, by rw [hv42, harg3]; rfl]

theorem L19 (h : P18 W a0 a1 a2 a3) : P19 (after c19 W) a0 a1 a2 a3 := by
  obtain ⟨⟨harg0, harg1, harg2, harg3⟩, hv12, hv42, hv45, hv46⟩ := h
  and_intros <;> after_results
  exacts [harg0, harg1, harg2, harg3, hv42, by rw [hv46, hv45]; rfl, rfl, by rw [hv12]; rfl]

theorem L20 (h : P19 W a0 a1 a2 a3) : P20 (after c20 W) a0 a1 a2 a3 := by
  obtain ⟨⟨harg0, harg1, harg2, harg3⟩, hv42, hv48, hcst_11, hcall6_v0⟩ := h
  and_intros <;> after_results
  exacts [harg0, harg1, harg2, harg3, hv42, by rw [hcall6_v0, hcst_11, hv48]; rfl, by rw [harg2]; rfl, rfl]

theorem L21 (h : P20 W a0 a1 a2 a3) : P21 (after c21 W) a0 a1 a2 a3 := by
  obtain ⟨⟨harg0, harg1, harg2, harg3⟩, hv42, hv49, hv50, hcst_12⟩ := h
  and_intros <;> after_results
  exacts [harg0, harg1, harg2, harg3, hv42, by rw [hv50, hv49, hcst_12]; rfl, rfl]

theorem L22 (h : P21 W a0 a1 a2 a3) : P22 (after c22 W) a0 a1 a2 a3 := by
  obtain ⟨⟨harg0, harg1, harg2, harg3⟩, hv42, hv51, hcst_13⟩ := h
  and_intros <;> after_results
  exacts [harg0, harg1, harg2, harg3, hv42, hv51, by rw [hv51, hcst_13]; rfl]

theorem L23 (h : P22 W a0 a1 a2 a3) : P23 (after c23 W) a0 a1 a2 a3 := by
  obtain ⟨⟨harg0, harg1, harg2, harg3⟩, hv42, hv51, hv54⟩ := h
  and_intros <;> after_results
  exacts [harg0, harg1, harg2, harg3, hv42, hv51, by rw [hv54]; rfl, rfl]

theorem L24 (h : P23 W a0 a1 a2 a3) : P24 (after c24 W) a0 a1 a2 a3 := by
  obtain ⟨⟨harg0, harg1, harg2, harg3⟩, hv42, hv51, hcall8_v0, hcall8_v1⟩ := h
  and_intros <;> after_results
  exacts [harg0, harg1, harg2, harg3, hv42, by rw [hcall8_v0, hcall8_v1, hv51]; rfl,
    by rw [hcall8_v0, hcall8_v1, hv51]; rfl, rfl]

theorem L25 (h : P24 W a0 a1 a2 a3) : P25 (after c25 W) a0 a1 a2 a3 := by
  obtain ⟨⟨harg0, harg1, harg2, harg3⟩, hv42, hv56, hcall9_v0, hcall9_v1⟩ := h
  and_intros <;> after_results
  exacts [harg0, harg1, harg2, harg3, hv42, hv56, by rw [hcall9_v0, hcall9_v1]; rfl, rfl]

theorem L26 (h : P25 W a0 a1 a2 a3) : P26 (after c26 W) a0 a1 a2 a3 := by
  obtain ⟨⟨harg0, harg1, harg2, harg3⟩, hv42, hv56, hv58, hcst_17⟩ := h
  and_intros <;> after_results
  exacts [harg0, harg1, harg2, harg3, hv42, hv56, by rw [hv58, hcst_17]; rfl]

theorem L27 (h : P26 W a0 a1 a2 a3) : P27 (after c27 W) a0 a1 a2 a3 := by
  obtain ⟨⟨harg0, harg1, harg2, harg3⟩, hv42, hv56, hv59⟩ := h
  and_intros <;> after_results
  exacts [harg0, harg1, harg2, harg3, hv42, hv59, by rw [hv56]; rfl, rfl]

theorem L28 (h : P27 W a0 a1 a2 a3) : P28 (after c28 W) a0 a1 a2 a3 := by
  obtain ⟨⟨harg0, harg1, harg2, harg3⟩, hv42, hv59, hv61, hv62⟩ := h
  and_intros <;> after_results
  exacts [harg0, harg1, harg2, harg3, hv42, hv59, by rw [hv62, hv61]; rfl]

theorem L29 (h : P28 W a0 a1 a2 a3) : P29 (after c29 W) a0 a1 a2 a3 := by
  obtain ⟨⟨harg0, harg1, harg2, harg3⟩, hv42, hv59, hv65⟩ := h
  and_intros <;> after_results
  exacts [harg0, harg1, harg2, harg3, by rw [hv65]; rfl, by rw [hv59, hv42, hv65]; rfl]

theorem L30 (h : P29 W a0 a1 a2 a3) : P30 (after c30 W) a0 a1 a2 a3 := by
  obtain ⟨⟨harg0, harg1, harg2, harg3⟩, hv66, hv68⟩ := h
  and_intros <;> after_results
  exacts [harg0, harg1, harg2, harg3, by rw [hv66, hv68]; rfl]

theorem chain (V : Valuation τ sig (Elt F)) :
    P30 (after c30 (after c29 (after c28 (after c27 (after c26 (after c25 (after c24 (after c23 (after c22 (after c21 (after c20 (after c19 (after c18 (after c17 (after c16 (after c15 (after c14 (after c13 (after c12 (after c11 (after c10 (after c9 (after c8 (after c7 (after c6 (after c5 (after c4 (after c3 (after c2 (after c1 (V)))))))))))))))))))))))))))))))
      (V main_arg0) (V main_arg1) (V main_arg2) (V main_arg3) :=
  L30 (L29 (L28 (L27 (L26 (L25 (L24 (L23 (L22 (L21 (L20 (L19 (L18 (L17 (L16 (L15 (L14 (L13 (L12 (L11 (L10 (L9 (L8 (L7 (L6 (L5 (L4 (L3 (L2 (L1 (W := V) ⟨rfl, rfl, rfl, rfl⟩)))))))))))))))))))))))))))))

end Cert.ReferenceIdeal.RunH

end
-- ==== Proof.RefRunH.lean ====
import proofs.«408110_j25142738550817_3_alg».proof.Proof.RefOpsP
import proofs.«408110_j25142738550817_3_alg».proof.Proof.RefReadP
import proofs.«408110_j25142738550817_3_alg».proof.Proof.RefRunHTab

set_option maxRecDepth 8192

noncomputable section

namespace Cert.ReferenceIdeal.RunH

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Folding over a concatenation folds the second list over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxHeartbeats 1000000 in
theorem ops_split : (ops : List (HloOp τ sig (Elt F))) = stretches := rfl

theorem after_ops (V : Valuation τ sig (Elt F)) :
    P30 (after ops V) (V (Proc.devRef .tc main_arg0)) (V (Proc.devRef .tc main_arg1)) (V (Proc.devRef .tc main_arg2))
      (V (Proc.devRef .tc main_arg3)) := by
  rw [ops_split]
  simp only [stretches, after_append]
  exact chain V

/-- Every weakly fair execution ends with the result buffer at the last stage of the launch arguments, themselves unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = Cert.ReferenceIdeal.Read.val_main_v69 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨⟨e0, e1, e2, e3⟩, e69⟩ := after_ops (F := F) (launchContents m c)
      exact ⟨(h c main_v69).trans e69, (h c main_arg0).trans e0, (h c main_arg1).trans e1, (h c main_arg2).trans e2,
        (h c main_arg3).trans e3⟩)
    (run_seq scopedRefs_eq scopedSems_eq defs main (fun _ => ops) main_eq (fun _ => ops_sub) m ρ)

end Cert.ReferenceIdeal.RunH

end
-- ==== Proof.RefVal1.lean ====
import proofs.«408110_j25142738550817_3_alg».proof.Proof.RefReadP
import proofs.«408110_j25142738550817_3_alg».proof.Proof.Spec
import Idealize.ShloMosaic.Lib.IdealHost
import Idealize.ShloMosaic.Lib.WordArith

noncomputable section

namespace Cert.ReferenceIdeal.RefValue

open Cert.ReferenceIdeal Cert.ReferenceIdeal.Gen Cert.ReferenceIdeal.Read
open Idealize.ShloMosaic Idealize.ShloMosaic.ValueIdx
open scoped Classical

theorem cmp_oeq_eq_one (x y : EReal) : Ideal.cmp .oeq x y = 1#1 ↔ x = y := by
  show BitVec.ofBool (decide (x = y)) = 1#1 ↔ x = y
  rw [WordArith.ofBool_eq_one_iff, decide_eq_true_eq]

theorem select_of_iff {α : Type} {c : BitVec 1} {p : Prop} [Decidable p] (h : c = 1#1 ↔ p) (a b : α) :
    Scalar.select c a b = if p then a else b :=
  if_congr h rfl rfl

theorem fold_andi_eq_one {ι : Type} (s : Finset ι) (f : ι → BitVec 1) :
    s.fold IntOp.andi 1#1 f = 1#1 ↔ ∀ k ∈ s, f k = 1#1 := by
  classical
  induction s using Finset.induction_on with
  | empty => simp
  | insert a s ha ih => rw [Finset.fold_insert ha, IntOp.andi_eq_one, ih, Finset.forall_mem_insert]

-- An "and" over one axis, started from 1, is 1 exactly when every entry along that axis is 1.
theorem reduce_andi_iff {s t u : Shape} {a : Fin s.rank} (y : s.Idx → BitVec 1) (c : u.Idx → BitVec 1)
    (h' : s.ReducesTo [a] t) (h : s.Reduces [a] t) (hu : 0 < u.numel) (n : t.Idx) (hc : c (Shape.Idx.first hu) = 1#1) :
    Host.reduce IntOp.andi y c h' hu n = 1#1 ↔ ∀ q, y (h.lift n q) = 1#1 := by
  rw [Host.reduce_eq_fold_single IntOp.andi y c h' h hu, hc, fold_andi_eq_one]
  exact ⟨fun H q => H q (Finset.mem_univ _), fun H q _ => H q⟩

theorem ofBits_neg_inf : FloatOps.ofBits (F := Ideal) .f32 0xFF800000#32 = (⊥ : EReal) := by
  rw [Ideal.ofBits_def]; simp [Ideal.ofBits, Ideal.ieee]

theorem ofBits_pos_inf : FloatOps.ofBits (F := Ideal) .f32 0x7F800000#32 = (⊤ : EReal) := by
  rw [Ideal.ofBits_def]; simp [Ideal.ofBits, Ideal.ieee]

theorem abs_bot : max (⊥ : EReal) (-⊥) = ⊤ := by rw [EReal.neg_bot]; exact max_eq_right bot_le

theorem abs_real_ne_top (r : ℝ) : max (r : EReal) (-(r : EReal)) ≠ ⊤ := by
  rw [← EReal.coe_neg, ← Cert.RealSums.coe_max]; exact EReal.coe_ne_top _

variable (x0 : (⟨S2x64x64x128, .f32⟩ : BufTy).Contents (Elt Ideal)) (x1 : (⟨S2x64x64, .i1⟩ : BufTy).Contents (Elt Ideal))
  (x2 : (⟨S2x64x64x64, .i1⟩ : BufTy).Contents (Elt Ideal)) (x3 : (⟨S128x128, .f32⟩ : BufTy).Contents (Elt Ideal))
  (b : Fin 2) (i j m : Fin 64) (k : Fin 128)

abbrev G0 : Spec.G4 := Spec.g0 (Spec.toG4 x0) (Spec.toA3 x1)

abbrev P1 : Spec.G4 := Spec.proj (G0 x0 x1) (Spec.toWt x3)

abbrev Ad : Spec.Adm := Spec.admOf (Spec.toM4 x2)

abbrev Vd : Prop := Spec.validP (P1 x0 x1 x3) (G0 x0 x1) (Ad x2) b i j m

theorem v15_at : val_main_v15 (F := Ideal) x0 x1 (ix4 b i j k) = G0 x0 x1 b i j k := by
  rw [val_main_v15_apply, val_main_call0_v0_apply, val_main_v13_apply, val_main_v14_apply, val_main_cst_apply,
    Ideal.ofBits_def, Ideal.ofBits_zero_f32, show idx_main_v13 (idx_main_call0_v0 (ix4 b i j k)) = ix3 b i j from eq_ix3 _]
  exact select_of_iff decide_eq_true_iff.symm _ _

theorem v16_at : val_main_v16 (F := Ideal) x0 x1 x3 (ix4 b i j k) = P1 x0 x1 x3 b i j k := by
  rw [val_main_v16_apply]
  refine Finset.sum_congr rfl fun q _ => ?_
  rw [show lidx_main_v16 (ix4 b i j k) q = ix4 b i j q from eq_ix4 _,
    show ridx_main_v16 (ix4 b i j k) q = ix2 q k from eq_ix2 _, v15_at]
  rfl

theorem v21_at : val_main_v21 (F := Ideal) x0 x1 x3 (ix5 b i j m k) = P1 x0 x1 x3 b i j k * G0 x0 x1 b j m k := by
  rw [val_main_v21_apply, val_main_v19_apply, val_main_v17_apply, val_main_v20_apply, val_main_v18_apply,
    show idx_main_v17 (idx_main_v19 (ix5 b i j m k)) = ix4 b i j k from eq_ix4 _,
    show idx_main_v18 (idx_main_v20 (ix5 b i j m k)) = ix4 b j m k from eq_ix4 _, v16_at, v15_at]
  rfl

theorem v4_at (a c : Fin 64) : val_main_v4 (F := Ideal) (ix2 a c) = 1#1 ↔ a = c := by
  rw [val_main_v4_apply, val_main_v3_apply, val_main_v0_apply, val_main_v2_apply, val_main_c_apply, val_main_v1_apply,
    IntOp.cmpi_eq]
  show BitVec.ofNat 32 a.val + 0#32 = BitVec.ofNat 32 c.val ↔ a = c
  rw [BitVec.add_zero]
  refine ⟨fun h => ?_, fun h => h ▸ rfl⟩
  have h' := congrArg BitVec.toNat h
  rw [BitVec.toNat_ofNat, BitVec.toNat_ofNat] at h'
  have ha := a.isLt
  have hc := c.isLt
  exact Fin.ext (by omega)

theorem diag_at : val_main_call1_v0 (F := Ideal) (ix5 b i j m k) = 1#1 ↔ (j = m ∨ i = j ∨ i = m) := by
  rw [val_main_call1_v0_apply, val_main_v12_apply, val_main_v9_apply, val_main_v7_apply, val_main_v5_apply,
    val_main_v8_apply, val_main_v6_apply, val_main_v11_apply, val_main_v10_apply, IntOp.ori_eq_one, IntOp.ori_eq_one,
    show idx_main_v5 (idx_main_v7 (idx_main_call1_v0 (ix5 b i j m k))) = ix2 j m from eq_ix2 _,
    show idx_main_v6 (idx_main_v8 (idx_main_call1_v0 (ix5 b i j m k))) = ix2 i j from eq_ix2 _,
    show idx_main_v10 (idx_main_v11 (idx_main_call1_v0 (ix5 b i j m k))) = ix2 i m from eq_ix2 _, v4_at, v4_at, v4_at, or_assoc]

theorem v24_at : val_main_v24 (F := Ideal) x0 x1 x2 x3 (ix5 b i j m k)
      = if Ad x2 b i j m then P1 x0 x1 x3 b i j k * G0 x0 x1 b j m k else ⊥ := by
  have hm : x2 (ix4 b i j m) = 1#1 ↔ Spec.toM4 x2 b i j m = true := decide_eq_true_iff.symm
  rw [val_main_v24_apply, val_main_v22_apply, val_main_call2_v0_apply, val_main_v23_apply, val_main_call2_v1_apply,
    val_main_cst_1_apply, val_main_call1_v1_apply, val_main_cst_0_apply, v21_at, ofBits_neg_inf,
    show idx_main_v23 (idx_main_call2_v0 (ix5 b i j m k)) = ix4 b i j m from eq_ix4 _,
    select_of_iff (diag_at b i j m k), select_of_iff hm]
  by_cases h1 : Spec.toM4 x2 b i j m = true <;> by_cases h2 : (j = m ∨ i = j ∨ i = m) <;> simp [Spec.admOf, h1, h2]

theorem v27_at : val_main_v27 (F := Ideal) x0 x1 x2 x3 (ix4 b i j m) = 1#1
      ↔ ∀ k : Fin 128, val_main_v24 (F := Ideal) x0 x1 x2 x3 (ix5 b i j m k) = 0 := by
  have hR : S2x64x64x64x128.Reduces [4] S2x64x64x64 := by decide
  unfold val_main_v27
  rw [reduce_andi_iff _ _ reducesTo_S2x64x64x64x128_S2x64x64x64_d4 hR h_S_ _ rfl]
  refine forall_congr' fun k : Fin 128 => ?_
  rw [show hR.lift (ix4 b i j m) k = ix5 b i j m k from eq_ix5 _, val_main_v26_apply, val_main_v25_apply,
    val_main_cst_2_apply, Ideal.ofBits_def, Ideal.ofBits_zero_f32, Ideal.cmpf_def, cmp_oeq_eq_one]

theorem v29_at : val_main_v29 (F := Ideal) x0 x1 x2 x3 (ix5 b i j m k)
      = if Vd x0 x1 x2 x3 b i j m then P1 x0 x1 x3 b i j k * G0 x0 x1 b j m k else ⊥ := by
  rw [val_main_v29_apply, val_main_call3_v0_apply, val_main_v28_apply, val_main_call3_v1_apply, val_main_cst_4_apply,
    ofBits_neg_inf, show idx_main_v28 (idx_main_call3_v0 (ix5 b i j m k)) = ix4 b i j m from eq_ix4 _,
    select_of_iff (v27_at x0 x1 x2 x3 b i j m)]
  by_cases ha : Ad x2 b i j m
  · simp only [v24_at, Vd, Spec.validP, ha, if_true, true_and, ite_not]
  · simp only [v24_at, Vd, Spec.validP, ha, if_false, false_and, ite_self]

theorem v38_at : val_main_v38 (F := Ideal) x0 x1 x2 x3 (ix5 b i j m k)
      = if Vd x0 x1 x2 x3 b i j m then Ideal.logistic (P1 x0 x1 x3 b i j k * G0 x0 x1 b j m k) else 0 := by
  rw [val_main_v38_apply, val_main_v37_apply, val_main_cst_9_apply, val_main_v36_apply, val_main_v35_apply,
    val_main_cst_8_apply, val_main_v34_apply, val_main_v33_apply, v29_at, Ideal.ofBits_def, Ideal.ofBits_one_f32]
  show Ideal.logistic _ = _
  rw [apply_ite Ideal.logistic, Ideal.logistic_bot]

theorem v39_at : val_main_v39 (F := Ideal) x0 x1 x2 x3 (ix4 b i m k) = Spec.ngP (P1 x0 x1 x3) (G0 x0 x1) (Ad x2) b i m k := by
  rw [val_main_v39_apply, val_main_cst_10_apply, Ideal.ofBits_def, Ideal.ofBits_zero_f32, zero_add]
  refine Finset.sum_congr rfl fun j _ => ?_
  rw [show idx_main_v39 (ix4 b i m k) j = ix5 b i j m k from eq_ix5 _, v38_at]

-- A valid path's product is a real number, so its absolute value is not ⊤; an invalid one was set to ⊥, whose absolute value is ⊤.
theorem v31_at (h0 : Spec.IsReal (Spec.toG4 x0)) (h3 : Spec.IsRealW (Spec.toWt x3)) :
    val_main_v31 (F := Ideal) x0 x1 x2 x3 (ix4 b i m k) = 1#1 ↔ ¬ ∃ j : Fin 64, Vd x0 x1 x2 x3 b i j m := by
  have hR : S2x64x64x64x128.Reduces [2] S2x64x64x128 := by decide
  unfold val_main_v31
  rw [reduce_andi_iff _ _ reducesTo_S2x64x64x64x128_S2x64x64x128_d2 hR h_S_ _ rfl, not_exists]
  refine forall_congr' fun j : Fin 64 => ?_
  rw [show hR.lift (ix4 b i m k) j = ix5 b i j m k from eq_ix5 _, val_main_v30_apply, val_main_call4_v0_apply,
    val_main_call4_v1_apply, val_main_call4_cst_apply, ofBits_pos_inf, Ideal.cmpf_def, cmp_oeq_eq_one, Ideal.hostAbsf_def,
    Ideal.absf_def, v29_at]
  by_cases h : Vd x0 x1 x2 x3 b i j m
  · rw [if_pos h]
    have hG := Spec.g0_isReal (Spec.toA3 x1) h0
    obtain ⟨r, hr⟩ : ∃ r : ℝ, P1 x0 x1 x3 b i j k = (r : EReal) := Spec.proj_isReal hG h3 b i j k
    obtain ⟨s, hs⟩ : ∃ s : ℝ, G0 x0 x1 b j m k = (s : EReal) := hG b j m k
    rw [hr, hs, ← EReal.coe_mul]
    exact iff_of_false (abs_real_ne_top _) (fun hn => hn h)
  · rw [if_neg h]
    exact iff_of_true abs_bot h

theorem v32_at (h0 : Spec.IsReal (Spec.toG4 x0)) (h3 : Spec.IsRealW (Spec.toWt x3)) :
    val_main_v32 (F := Ideal) x0 x1 x2 x3 (ix4 b i m k) = Spec.betaP (P1 x0 x1 x3) (G0 x0 x1) (Ad x2) b i m := by
  rw [val_main_v32_apply, val_main_call5_v0_apply, val_main_cst_6_apply, val_main_call5_v1_apply, val_main_cst_7_apply,
    Ideal.ofBits_def, Ideal.ofBits_def, Ideal.ofBits_one_f32, select_of_iff (v31_at x0 x1 x2 x3 b i m k h0 h3), ite_not]
  unfold Spec.betaP
  by_cases h : ∃ j : Fin 64, Vd x0 x1 x2 x3 b i j m
  · rw [if_pos h, if_pos h]; rfl
  · rw [if_neg h, if_neg h]

theorem ref_iter1 (h0 : Spec.IsReal (Spec.toG4 x0)) (h3 : Spec.IsRealW (Spec.toWt x3)) :
    val_main_v42 (F := Ideal) x0 x1 x2 x3
      = Spec.ofG4 (Spec.step (Spec.g0 (Spec.toG4 x0) (Spec.toA3 x1)) (Spec.toWt x3) (Spec.toM4 x2)) := by
  funext idx
  obtain ⟨b, i, m, k, rfl⟩ : ∃ (b : Fin 2) (i m : Fin 64) (k : Fin 128), idx = ix4 b i m k :=
    ⟨idx 0, idx 1, idx 2, idx 3, eq_ix4 idx⟩
  rw [val_main_v42_apply, val_main_v41_apply, val_main_v40_apply, v39_at, v32_at x0 x1 x2 x3 b i m k h0 h3, v15_at]
  rfl

end Cert.ReferenceIdeal.RefValue

end
-- ==== Proof.RefVal2.lean ====
import proofs.«408110_j25142738550817_3_alg».proof.Proof.RefVal1

noncomputable section

namespace Cert.ReferenceIdeal.RefValue

open Cert.ReferenceIdeal Cert.ReferenceIdeal.Gen Cert.ReferenceIdeal.Read
open Idealize.ShloMosaic Idealize.ShloMosaic.ValueIdx

variable (x0 : (⟨S2x64x64x128, .f32⟩ : BufTy).Contents (Elt Ideal)) (x1 : (⟨S2x64x64, .i1⟩ : BufTy).Contents (Elt Ideal))
  (x2 : (⟨S2x64x64x64, .i1⟩ : BufTy).Contents (Elt Ideal)) (x3 : (⟨S128x128, .f32⟩ : BufTy).Contents (Elt Ideal))

-- Masking by an adjacency that is true everywhere changes nothing.
theorem v15_ones : val_main_v15 (F := Ideal) x0 (fun _ => 1#1) = x0 := by
  funext i
  rw [val_main_v15_apply, val_main_call0_v0_apply, val_main_v13_apply]
  exact select_one _ _

-- The second iteration is the first iteration's operations, one for one, applied to the first's result.
theorem iter2_eq_iter1 : val_main_v69 (F := Ideal) x0 x1 x2 x3
    = val_main_v42 (F := Ideal) (val_main_v42 (F := Ideal) x0 x1 x2 x3) (fun _ => 1#1) x2 x3 := by
  delta val_main_v69 val_main_v68 val_main_v67 val_main_v66 val_main_v65 val_main_v63 val_main_v61 val_main_v60 val_main_v59 val_main_v58 val_main_v57 val_main_call9_v0 val_main_v56 val_main_call8_v0 val_main_v55 val_main_v54 val_main_v53 val_main_v51 val_main_v49 val_main_v48 val_main_v47 val_main_v46 val_main_v45 val_main_v44 val_main_v43
  generalize val_main_v42 (F := Ideal) x0 x1 x2 x3 = y
  delta val_main_v42 val_main_v41 val_main_v40 val_main_v39 val_main_v38 val_main_v36 val_main_v34 val_main_v33 val_main_v32 val_main_v31 val_main_v30 val_main_call4_v0 val_main_v29 val_main_call3_v0 val_main_v28 val_main_v27 val_main_v26 val_main_v24 val_main_v22 val_main_v21 val_main_v20 val_main_v19 val_main_v18 val_main_v17 val_main_v16
  rw [v15_ones]
  rfl

theorem ref_iter2 (hy : Spec.IsReal (Spec.toG4 (val_main_v42 (F := Ideal) x0 x1 x2 x3))) (h3 : Spec.IsRealW (Spec.toWt x3)) :
    val_main_v69 (F := Ideal) x0 x1 x2 x3
      = Spec.ofG4 (Spec.step (Spec.toG4 (val_main_v42 (F := Ideal) x0 x1 x2 x3)) (Spec.toWt x3) (Spec.toM4 x2)) := by
  rw [iter2_eq_iter1, ref_iter1 _ _ x2 x3 hy h3]
  rfl

end Cert.ReferenceIdeal.RefValue

end
-- ==== Proof.RefVal.lean ====
import proofs.«408110_j25142738550817_3_alg».proof.Proof.RefVal1
import proofs.«408110_j25142738550817_3_alg».proof.Proof.RefVal2

noncomputable section

namespace Cert.ReferenceIdeal.RefValue

open Cert.ReferenceIdeal Cert.ReferenceIdeal.Gen Cert.ReferenceIdeal.Read
open Idealize.ShloMosaic Idealize.ShloMosaic.ValueIdx

theorem ref_value (x0 : (⟨S2x64x64x128, .f32⟩ : BufTy).Contents (Elt Ideal)) (x1 : (⟨S2x64x64, .i1⟩ : BufTy).Contents (Elt Ideal))
    (x2 : (⟨S2x64x64x64, .i1⟩ : BufTy).Contents (Elt Ideal)) (x3 : (⟨S128x128, .f32⟩ : BufTy).Contents (Elt Ideal))
    (h0 : Spec.IsReal (Spec.toG4 x0)) (h3 : Spec.IsRealW (Spec.toWt x3)) :
    val_main_v69 (F := Ideal) x0 x1 x2 x3
      = Spec.ofG4 (Spec.result (Spec.toG4 x0) (Spec.toA3 x1) (Spec.toM4 x2) (Spec.toWt x3)) := by
  have e1 := ref_iter1 x0 x1 x2 x3 h0 h3
  have hy : Spec.IsReal (Spec.toG4 (val_main_v42 (F := Ideal) x0 x1 x2 x3)) := by
    rw [e1, Spec.toG4_ofG4]
    exact Spec.step_isReal _ (Spec.g0_isReal _ h0) h3
  rw [ref_iter2 x0 x1 x2 x3 hy h3, e1, Spec.toG4_ofG4]
  rfl

end Cert.ReferenceIdeal.RefValue

end
-- ==== Proof.PreReal.lean ====
import proofs.«408110_j25142738550817_3_alg».proof.Proof.Spec
import proofs.«408110_j25142738550817_3_alg».proof.Pre_finite_inputs
import Idealize.ShloMosaic.Lib.ReduceAll
import Idealize.ShloMosaic.PureOps.Ideal

noncomputable section

namespace Cert.PreReal

open Idealize.ShloMosaic

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem fn_real [Cert.Pre_finite_inputs.Facts]
    (a0 : (⟨4, ![2, 64, 64, 128]⟩ : Shape).Idx → EReal) (a1 : (⟨3, ![2, 64, 64]⟩ : Shape).Idx → BitVec 1)
    (a2 : (⟨4, ![2, 64, 64, 64]⟩ : Shape).Idx → BitVec 1) (a3 : (⟨2, ![128, 128]⟩ : Shape).Idx → EReal)
    (h : Cert.Pre_finite_inputs.fn (F := Ideal) a0 a1 a2 a3 = fun _ => 1#1) :
    Spec.IsReal (Spec.toG4 a0) ∧ Spec.IsRealW (Spec.toWt a3) := by
  have h0 := congrFun h ValueIdx.ix0
  dsimp only [Cert.Pre_finite_inputs.fn] at h0
  obtain ⟨e1, e2⟩ := IntOp.andi_eq_one.1 h0
  exact ⟨fun b i j k => real_of_abs_lt _ (Host.reduce_andi_all _ _ _ _ _ e1 (ValueIdx.ix4 b i j k)),
    fun k l => real_of_abs_lt _ (Host.reduce_andi_all _ _ _ _ _ e2 (ValueIdx.ix2 k l))⟩

end Cert.PreReal

end
-- ==== Proof.lean ====
import proofs.«408110_j25142738550817_3_alg».proof.Defs
import proofs.«408110_j25142738550817_3_alg».proof.Proof.Gen.Kernel
import proofs.«408110_j25142738550817_3_alg».proof.Proof.Gen.KernelIdeal
import proofs.«408110_j25142738550817_3_alg».proof.Proof.Gen.ReferenceIdeal
import proofs.«408110_j25142738550817_3_alg».proof.Proof.Gen.Pre_finite_inputs
import proofs.«408110_j25142738550817_3_alg».proof.Proof.KernelRun
import proofs.«408110_j25142738550817_3_alg».proof.Proof.KernelIdealRun
import proofs.«408110_j25142738550817_3_alg».proof.Proof.KernelIdealValue
import proofs.«408110_j25142738550817_3_alg».proof.Proof.RefRunH
import proofs.«408110_j25142738550817_3_alg».proof.Proof.RefVal
import proofs.«408110_j25142738550817_3_alg».proof.Proof.PreReal
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RunH.run (F := Ideal) m ρ)

/- Both sides are two steps g ↦ S + β·(g − S) from g₀ = where(adj, graph, 0), with S[b,i,m,k] = Σ_j [path (i,j,m) valid] σ((g·W)[b,i,j,k]·g[b,j,m,k]) and β = 0.9 if some path is valid, else 1; finiteness of graph and W tells a valid path's product from the −∞ that marks an invalid one. -/
theorem algebraic : Cert.algebraic_KernelIdeal_ReferenceIdeal := by
  intro m ρ m' ρ' hpre hagree
  refine ⟨fun c => Cert.KernelIdeal.Hand.W10 m c (Proc.devRef .tc Cert.KernelIdeal.main_v29), Cert.KernelIdeal.Hand.run_result m ρ, ?_⟩
  refine (θ_run Cert.ReferenceIdeal.defs _ _).mono (fun _ h c => ⟨(h c).1.trans ?_, (h c).2⟩)
    (Cert.ReferenceIdeal.RunH.run (F := Ideal) m' ρ')
  obtain ⟨hr0, hr3⟩ := Cert.PreReal.fn_real _ _ _ _ (hpre c)
  rw [(hagree c).1, (hagree c).2.1, (hagree c).2.2.1, (hagree c).2.2.2]
  rw [Cert.ReferenceIdeal.RefValue.ref_value _ _ _ _ hr0 hr3]
  exact (Cert.KernelIdeal.Hand.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
